-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x7 : Shape := ⟨2, ![100000, 7]⟩
abbrev S2x1600000 : Shape := ⟨2, ![2, 1600000]⟩
abbrev S100000 : Shape := ⟨1, ![100000]⟩
abbrev S7x128 : Shape := ⟨2, ![7, 128]⟩
abbrev S128 : Shape := ⟨1, ![128]⟩
abbrev S128x128 : Shape := ⟨2, ![128, 128]⟩
abbrev S384x256 : Shape := ⟨2, ![384, 256]⟩
abbrev S256 : Shape := ⟨1, ![256]⟩
abbrev S256x2 : Shape := ⟨2, ![256, 2]⟩
abbrev S2 : Shape := ⟨1, ![2]⟩
abbrev S_ : Shape := ⟨0, ![]⟩

class Facts : Prop where
  bcast_S_S100000x7 : S_.BroadcastsInDim S100000x7 (![] : Fin 0 → Fin S100000x7.rank)
  reducesTo_S100000x7_S_d0_1 : S100000x7.ReducesTo [0, 1] S_
  h_S_ : 0 < S_.numel
  bcast_S_S7x128 : S_.BroadcastsInDim S7x128 (![] : Fin 0 → Fin S7x128.rank)
  reducesTo_S7x128_S_d0_1 : S7x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  main_v103

def fn_part5 {F : FTy → Type} [FloatOps F] (main_arg20 : FVec F S256 .f32) (main_arg21 : FVec F S256 .f32) (main_arg22 : FVec F S256 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256 .f32 := Host.absf main_arg20
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256 .f32 := Host.absf main_arg21
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S256 .f32 := Host.absf main_arg22
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_v98 main_v101 main_c_39

def fn_part4 {F : FTy → Type} [FloatOps F] (main_arg16 : FVec F S256 .f32) (main_arg17 : FVec F S256x2 .f32) (main_arg18 : FVec F S2 .f32) (main_arg19 : FVec F S256 .f32) (main_arg20 : FVec F S256 .f32) (main_arg21 : FVec F S256 .f32) (main_arg22 : FVec F S256 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x2 .f32 := Host.absf main_arg17
  let main_cst_28 : FVec F S_ .f32 := constant S_ .f32 0x7F800000#32
  let main_v75 : FVec F S256x2 .f32 := broadcastInDim S256x2 ![] bcast_S_S256x2 main_cst_28
  let main_v76 : IVec S256x2 1 := cmpf .olt main_v74 main_v75
  let main_c_29 : IVec S_ 1 := constantI S_ 1 1#1
  let main_v77 : IVec S_ 1 := (fun x v => Host.reduce IntOp.andi x v reducesTo_S256x2_S_d0_1 h_S_) main_v76 main_c_29
  let main_v78 : IVec S_ 1 := andi main_v73 main_v77
  let main_v79 : FVec F S2 .f32 := Host.absf main_arg18
  let main_cst_30 : FVec F S_ .f32 := constant S_ .f32 0x7F800000#32
  let main_v80 : FVec F S2 .f32 := broadcastInDim S2 ![] bcast_S_S2 main_cst_30
  let main_v81 : IVec S2 1 := cmpf .olt main_v79 main_v80
  let main_c_31 : IVec S_ 1 := constantI S_ 1 1#1
  let main_v82 : IVec S_ 1 := (fun x v => Host.reduce IntOp.andi x v reducesTo_S2_S_d0 h_S_) main_v81 main_c_31
  let main_v83 : IVec S_ 1 := andi main_v78 main_v82
  let main_v84 : FVec F S256 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S128x128 .f32) (main_arg14 : FVec F S128 .f32) (main_arg15 : FVec F S384x256 .f32) (main_arg16 : FVec F S256 .f32) (main_arg17 : FVec F S256x2 .f32) (main_arg18 : FVec F S2 .f32) (main_arg19 : FVec F S256 .f32) (main_arg20 : FVec F S256 .f32) (main_arg21 : FVec F S256 .f32) (main_arg22 : FVec F S256 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S384x256 .f32 := Host.absf main_arg15
  let main_cst_24 : FVec F S_ .f32 := constant S_ .f32 0x7F800000#32
  let main_v65 : FVec F S384x256 .f32 := broadcastInDim S384x256 ![] bcast_S_S384x256 main_cst_24
  let main_v66 : IVec S384x256 1 := cmpf .olt main_v64 main_v65
  let main_c_25 : IVec S_ 1 := constantI S_ 1 1#1
  let main_v67 : IVec S_ 1 := (fun x v => Host.reduce IntOp.andi x v reducesTo_S384x256_S_d0_1 h_S_) main_v66 main_c_25
  fn_part4 (F := F) main_arg16 main_arg17 main_arg18 main_arg19 main_arg20 main_arg21 main_arg22 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S384x256 .f32) (main_arg16 : FVec F S256 .f32) (main_arg17 : FVec F S256x2 .f32) (main_arg18 : FVec F S2 .f32) (main_arg19 : FVec F S256 .f32) (main_arg20 : FVec F S256 .f32) (main_arg21 : FVec F S256 .f32) (main_arg22 : FVec F S256 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S384x256 .f32) (main_arg16 : FVec F S256 .f32) (main_arg17 : FVec F S256x2 .f32) (main_arg18 : FVec F S2 .f32) (main_arg19 : FVec F S256 .f32) (main_arg20 : FVec F S256 .f32) (main_arg21 : FVec F S256 .f32) (main_arg22 : FVec F S256 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000x7 .f32) (main_arg1 : IVec S2x1600000 32) (main_arg2 : IVec S100000 32) (main_arg3 : FVec F S7x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S384x256 .f32) (main_arg16 : FVec F S256 .f32) (main_arg17 : FVec F S256x2 .f32) (main_arg18 : FVec F S2 .f32) (main_arg19 : FVec F S256 .f32) (main_arg20 : FVec F S256 .f32) (main_arg21 : FVec F S256 .f32) (main_arg22 : FVec F S256 .f32) : IVec S_ 1 :=
  let main_v0 : FVec F S100000x7 .f32 := Host.absf main_arg0
  let main_cst : FVec F S_ .f32 := constant S_ .f32 0x7F800000#32
  let main_v1 : FVec F S100000x7 .f32 := broadcastInDim S100000x7 ![] bcast_S_S100000x7 main_cst
  let main_v2 : IVec S100000x7 1 := cmpf .olt main_v0 main_v1
  let main_c : IVec S_ 1 := constantI S_ 1 1#1
  let main_v3 : IVec S_ 1 := (fun x v => Host.reduce IntOp.andi x v reducesTo_S100000x7_S_d0_1 h_S_) main_v2 main_c
  let main_v4 : FVec F S7x128 .f32 := Host.absf main_arg3
  let main_cst_0 : FVec F S_ .f32 := constant S_ .f32 0x7F800000#32
  let main_v5 : FVec F S7x128 .f32 := broadcastInDim S7x128 ![] bcast_S_S7x128 main_cst_0
  let main_v6 : IVec S7x128 1 := cmpf .olt main_v4 main_v5
  let main_c_1 : IVec S_ 1 := constantI S_ 1 1#1
  let main_v7 : IVec S_ 1 := (fun x v => Host.reduce IntOp.andi x v reducesTo_S7x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x7 : Shape := ⟨2, ![100000, 7]⟩
abbrev S2x1600000 : Shape := ⟨2, ![2, 1600000]⟩
abbrev S100000 : Shape := ⟨1, ![100000]⟩
abbrev S7x128 : Shape := ⟨2, ![7, 128]⟩
abbrev S128 : Shape := ⟨1, ![128]⟩
abbrev S128x128 : Shape := ⟨2, ![128, 128]⟩
abbrev S384x256 : Shape := ⟨2, ![384, 256]⟩
abbrev S256 : Shape := ⟨1, ![256]⟩
abbrev S256x2 : Shape := ⟨2, ![256, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x7 : Shape := ⟨2, ![1600000, 7]⟩
abbrev S1x128 : Shape := ⟨2, ![1, 128]⟩
abbrev S100000x128 : Shape := ⟨2, ![100000, 128]⟩
abbrev S2000x7 : Shape := ⟨2, ![2000, 7]⟩
abbrev S2000x128 : Shape := ⟨2, ![2000, 128]⟩
abbrev S1600000x128 : Shape := ⟨2, ![1600000, 128]⟩
abbrev S100000x1 : Shape := ⟨2, ![100000, 1]⟩
abbrev S1024x128 : Shape := ⟨2, ![1024, 128]⟩
abbrev S2000x1 : Shape := ⟨2, ![2000, 1]⟩
abbrev S1x1024 : Shape := ⟨2, ![1, 1024]⟩
abbrev S2000x1024 : Shape := ⟨2, ![2000, 1024]⟩
abbrev S1024x384 : Shape := ⟨2, ![1024, 384]⟩
abbrev S1x256 : Shape := ⟨2, ![1, 256]⟩
abbrev S1x2 : Shape := ⟨2, ![1, 2]⟩
abbrev S1024x2 : Shape := ⟨2, ![1024, 2]⟩
abbrev S1024x256 : Shape := ⟨2, ![1024, 256]⟩

abbrev nBuf : Space → Nat
  | .hbm => 87
  | .vmem => 51
  | .smem => 0
  | _ => 0

abbrev bufTy : (tb : Table) → Fin (tcTables nBuf tb) → BufTy
  | .hbm, ⟨0, _⟩ => ⟨S100000x7, .f32⟩
  | .hbm, ⟨1, _⟩ => ⟨S2x1600000, .i32⟩
  | .hbm, ⟨2, _⟩ => ⟨S100000, .i32⟩
  | .hbm, ⟨3, _⟩ => ⟨S7x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S384x256, .f32⟩
  | .hbm, ⟨16, _⟩ => ⟨S256, .f32⟩
  | .hbm, ⟨17, _⟩ => ⟨S256x2, .f32⟩
  | .hbm, ⟨18, _⟩ => ⟨S2, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S256, .f32⟩
  | .hbm, ⟨23, _⟩ => ⟨S1x1600000, .i32⟩
  | .hbm, ⟨24, _⟩ => ⟨S1600000, .i32⟩
  | .hbm, ⟨25, _⟩ => ⟨S1x1600000, .i32⟩
  | .hbm, ⟨26, _⟩ => ⟨S1600000, .i32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x7, .f32⟩
  | .hbm, ⟨36, _⟩ => ⟨S_, .f32⟩
  | .hbm, ⟨37, _⟩ => ⟨S100000x7, .f32⟩
  | .hbm, ⟨38, _⟩ => ⟨S1600000x1, .i32⟩
  | .hbm, ⟨39, _⟩ => ⟨S100000x7, .f32⟩
  | .hbm, ⟨40, _⟩ => ⟨S1x128, .f32⟩
  | .hbm, ⟨41, _⟩ => ⟨S1x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S1x128, .f32⟩
  | .hbm, ⟨57, _⟩ => ⟨S1x128, .f32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S1x128, .f32⟩
  | .hbm, ⟨73, _⟩ => ⟨S1x128, .f32⟩
  | .hbm, ⟨74, _⟩ => ⟨S100000x128, .f32⟩
  | .hbm, ⟨75, _⟩ => ⟨S100000x1, .i32⟩
  | .hbm, ⟨76, _⟩ => ⟨S1024x128, .f32⟩
  | .hbm, ⟨77, _⟩ => ⟨S1024x128, .f32⟩
  | .hbm, ⟨78, _⟩ => ⟨S1024x128, .f32⟩
  | .hbm, ⟨79, _⟩ => ⟨S1024x384, .f32⟩
  | .hbm, ⟨80, _⟩ => ⟨S1x256, .f32⟩
  | .hbm, ⟨81, _⟩ => ⟨S1x2, .f32⟩
  | .hbm, ⟨82, _⟩ => ⟨S1x256, .f32⟩
  | .hbm, ⟨83, _⟩ => ⟨S1x256, .f32⟩
  | .hbm, ⟨84, _⟩ => ⟨S1x256, .f32⟩
  | .hbm, ⟨85, _⟩ => ⟨S1x256, .f32⟩
  | .hbm, ⟨86, _⟩ => ⟨S1024x2, .f32⟩
  | .local _ .vmem, ⟨0, _⟩ => ⟨S2000x7, .f32⟩
  | .local _ .vmem, ⟨1, _⟩ => ⟨S2000x7, .f32⟩
  | .local _ .vmem, ⟨2, _⟩ => ⟨S2000x7, .f32⟩
  | .local _ .vmem, ⟨3, _⟩ => ⟨S2000x7, .f32⟩
  | .local _ .vmem, ⟨4, _⟩ => ⟨S7x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x1, .i32⟩
  | .local _ .vmem, ⟨37, _⟩ => ⟨S2000x1, .i32⟩
  | .local _ .vmem, ⟨38, _⟩ => ⟨S1024x128, .f32⟩
  | .local _ .vmem, ⟨39, _⟩ => ⟨S1024x128, .f32⟩
  | .local _ .vmem, ⟨40, _⟩ => ⟨S1024x128, .f32⟩
  | .local _ .vmem, ⟨41, _⟩ => ⟨S1024x384, .f32⟩
  | .local _ .vmem, ⟨42, _⟩ => ⟨S384x256, .f32⟩
  | .local _ .vmem, ⟨43, _⟩ => ⟨S1x256, .f32⟩
  | .local _ .vmem, ⟨44, _⟩ => ⟨S1x256, .f32⟩
  | .local _ .vmem, ⟨45, _⟩ => ⟨S1x256, .f32⟩
  | .local _ .vmem, ⟨46, _⟩ => ⟨S1x256, .f32⟩
  | .local _ .vmem, ⟨47, _⟩ => ⟨S1x256, .f32⟩
  | .local _ .vmem, ⟨48, _⟩ => ⟨S256x2, .f32⟩
  | .local _ .vmem, ⟨49, _⟩ => ⟨S1x2, .f32⟩
  | .local _ .vmem, ⟨50, _⟩ => ⟨S1024x2, .f32⟩
  | _, _ => ⟨S100000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_1 : Ref sig .tc := ⟨.hbm, 43, rfl⟩
abbrev main_v17 : Ref sig .tc := ⟨.hbm, 44, rfl⟩
abbrev main_v18 : Ref sig .tc := ⟨.hbm, 45, rfl⟩
abbrev main_c_2 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_3 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_c_4 : Ref sig .tc := ⟨.hbm, 59, rfl⟩
abbrev main_v30 : Ref sig .tc := ⟨.hbm, 60, rfl⟩
abbrev main_v31 : Ref sig .tc := ⟨.hbm, 61, rfl⟩
abbrev main_c_5 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_6 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44_0 : Ref sig .tc := ⟨.hbm, 76, rfl⟩
abbrev main_v44_1 : Ref sig .tc := ⟨.hbm, 77, rfl⟩
abbrev main_v44_2 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc4_stg0_0 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg6_0 : Ref sig .tc := ⟨.vmem, 47, rfl⟩
abbrev cc4_stg7_0 : Ref sig .tc := ⟨.vmem, 48, rfl⟩
abbrev cc4_stg8_0 : Ref sig .tc := ⟨.vmem, 49, rfl⟩
abbrev cc4_stg9_0 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem5_0 : DmaSem sig := 39
abbrev cc3_sem6_0 : DmaSem sig := 40
abbrev cc4_sem0_0 : DmaSem sig := 41
abbrev cc4_sem1_0 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem6_0 : DmaSem sig := 47
abbrev cc4_sem7_0 : DmaSem sig := 48
abbrev cc4_sem8_0 : DmaSem sig := 49
abbrev cc4_sem9_0 : DmaSem sig := 50

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S7x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x1 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1024x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1024x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1024x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1024x384 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S384x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S256x2 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x2 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1024x2 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x7 : S_.BroadcastsInDim S100000x7 (![] : Fin 0 → Fin S100000x7.rank)
  shapeCasts_S128_S1x128 : S128.ShapeCasts S1x128
  inb_S2000x7_S2000x7_0_0 : ∀ a, (![0, 0] : Fin 2 → Nat) a + S2000x7.size a ≤ S2000x7.size a
  h_S2000x7 : 0 < S2000x7.numel
  shapeCasts_S2000x7_S2000x7 : S2000x7.ShapeCasts S2000x7
  bitsLt_bf16_f32 : FTy.bits .bf16 < FTy.bits .f32
  inb_S7x128_S7x128_0_0 : ∀ a, (![0, 0] : Fin 2 → Nat) a + S7x128.size a ≤ S7x128.size a
  h_S7x128 : 0 < S7x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  shapeCasts_S2000x128_S2000x128 : S2000x128.ShapeCasts S2000x128
  shapeCasts_S100000_S100000x1 : S100000.ShapeCasts S100000x1
  inb_S1024x128_S1024x128_0_0 : ∀ a, (![0, 0] : Fin 2 → Nat) a + S1024x128.size a ≤ S1024x128.size a
  h_S1024x128 : 0 < S1024x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S1x1024_d1_w32 : S1x1024.Iotas .tc 32 [1]
  broadcasts_S2000x1_S2000x1024 : S2000x1.Broadcasts S2000x1024
  broadcasts_S1x1024_S2000x1024 : S1x1024.Broadcasts S2000x1024
  natLt_1_32 : 1 < 32
  shapeCasts_S1024x128_S1024x128 : S1024x128.ShapeCasts S1024x128
  concatenates_S1024x128_S1024x128_S1024x128_S1024x384_d1 : Shape.Concatenates [S1024x128, S1024x128, S1024x128] S1024x384 1
  shapeCasts_S256_S1x256 : S256.ShapeCasts S1x256
  shapeCasts_S2_S1x2 : S2.ShapeCasts S1x2
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  inb_S384x256_S384x256_0_0 : ∀ a, (![0, 0] : Fin 2 → Nat) a + S384x256.size a ≤ S384x256.size a
  h_S384x256 : 0 < S384x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x2_S256x2_0_0 : ∀ a, (![0, 0] : Fin 2 → Nat) a + S256x2.size a ≤ S256x2.size a
  h_S256x2 : 0 < S256x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1024x2 : S1x2.Broadcasts S1024x2
  inb_S1024x2_S1024x2_0_0 : ∀ a, (![0, 0] : Fin 2 → Nat) a + S1024x2.size a ≤ S1024x2.size a
  h_S1024x2 : 0 < S1024x2.numel
  gather_S100000x7_S1600000x1_S1600000x7_1_0_n_n_0_1_17_wf : GatherDims.WF S100000x7 S1600000x1 S1600000x7 [1] [0] [] [0] [] 1 ![1, 7]
  scatter_S100000x7_S1600000x1_S1600000x7_1_0_0_1_wf : ScatterDims.WF S100000x7 S1600000x1 S1600000x7 [1] [0] [0] 1
  dot_S2000x7_S7x128_S2000x128_1_0_0_1_n_n_wf : DotDims.WF S2000x7 S7x128 S2000x128 [1] [0] [0] [1] [] []
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x1024_S2000x128_S1024x128_0_0_1_1_n_n_wf : DotDims.WF S2000x1024 S2000x128 S1024x128 [0] [0] [1] [1] [] []
  dot_S1024x384_S384x256_S1024x256_1_0_0_1_n_n_wf : DotDims.WF S1024x384 S384x256 S1024x256 [1] [0] [0] [1] [] []
  dot_S1024x256_S256x2_S1024x2_1_0_0_1_n_n_wf : DotDims.WF S1024x256 S256x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x7.size a ≤ S100000x7.size a
  hwx0_0 : ∀ i : grid0.Coords, EltTy.bits .f32 = 32 ∨ (Rect.block (s := S100000x7) S2000x7.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x7.size a ≤ S100000x7.size a
  hwx0_1 : ∀ i : grid0.Coords, EltTy.bits .f32 = 32 ∨ (Rect.block (s := S100000x7) S2000x7.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7x128.size a ≤ S7x128.size a
  hwx0_2 : ∀ i : grid0.Coords, EltTy.bits .f32 = 32 ∨ (Rect.block (s := S7x128) S7x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x1.size a ≤ S100000x1.size a
  hwx3_3 : ∀ i : grid3.Coords, EltTy.bits .i32 = 32 ∨ (Rect.block (s := S100000x1) S2000x1.size (cc3_transform_3 i) (hinb3_3 i)).WholeWords (EltTy.packing .i32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1024x128.size a ≤ S1024x128.size a
  hwx3_4 : ∀ i : grid3.Coords, EltTy.bits .f32 = 32 ∨ (Rect.block (s := S1024x128) S1024x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1024x128.size a ≤ S1024x128.size a
  hwx3_5 : ∀ i : grid3.Coords, EltTy.bits .f32 = 32 ∨ (Rect.block (s := S1024x128) S1024x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1024x128.size a ≤ S1024x128.size a
  hwx3_6 : ∀ i : grid3.Coords, EltTy.bits .f32 = 32 ∨ (Rect.block (s := S1024x128) S1024x128.size (cc3_transform_6 i) (hinb3_6 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1024x384.size a ≤ S1024x384.size a
  hwx4_0 : ∀ i : grid4.Coords, EltTy.bits .f32 = 32 ∨ (Rect.block (s := S1024x384) S1024x384.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S384x256.size a ≤ S384x256.size a
  hwx4_1 : ∀ i : grid4.Coords, EltTy.bits .f32 = 32 ∨ (Rect.block (s := S384x256) S384x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S256x2.size a ≤ S256x2.size a
  hwx4_7 : ∀ i : grid4.Coords, EltTy.bits .f32 = 32 ∨ (Rect.block (s := S256x2) S256x2.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x2.size a ≤ S1x2.size a
  hwx4_8 : ∀ i : grid4.Coords, EltTy.bits .f32 = 32 ∨ (Rect.block (s := S1x2) S1x2.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1024x2.size a ≤ S1024x2.size a
  hwx4_9 : ∀ i : grid4.Coords, EltTy.bits .f32 = 32 ∨ (Rect.block (s := S1024x2) S1024x2.size (cc4_transform_9 i) (hinb4_9 i)).WholeWords (EltTy.packing .f32)

variable [Facts₀]

def gather_S100000x7_S1600000x1_S1600000x7_1_0_n_n_0_1_17 : GatherDims S100000x7 S1600000x1 S1600000x7 where
  offsetDims := [1]
  collapsedSliceDims := [0]
  operandBatchingDims := []
  startIndicesBatchingDims := []
  startIndexMap := [0]
  indexVectorDim := 1
  sliceSizes := ![1, 7]
  wf := gather_S100000x7_S1600000x1_S1600000x7_1_0_n_n_0_1_17_wf
def scatter_S100000x7_S1600000x1_S1600000x7_1_0_0_1 : ScatterDims S100000x7 S1600000x1 S1600000x7 where
  updateWindowDims := [1]
  insertedWindowDims := [0]
  scatterDimsToOperandDims := [0]
  indexVectorDim := 1
  wf := scatter_S100000x7_S1600000x1_S1600000x7_1_0_0_1_wf
def dot_S2000x7_S7x128_S2000x128_1_0_0_1_n_n : DotDims S2000x7 S7x128 S2000x128 where
  lhsContracting := [1]
  rhsContracting := [0]
  lhsNonContracting := [0]
  rhsNonContracting := [1]
  lhsBatch := []
  rhsBatch := []
  wf := dot_S2000x7_S7x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x1024_S2000x128_S1024x128_0_0_1_1_n_n : DotDims S2000x1024 S2000x128 S1024x128 where
  lhsContracting := [0]
  rhsContracting := [0]
  lhsNonContracting := [1]
  rhsNonContracting := [1]
  lhsBatch := []
  rhsBatch := []
  wf := dot_S2000x1024_S2000x128_S1024x128_0_0_1_1_n_n_wf
def dot_S1024x384_S384x256_S1024x256_1_0_0_1_n_n : DotDims S1024x384 S384x256 S1024x256 where
  lhsContracting := [1]
  rhsContracting := [0]
  lhsNonContracting := [0]
  rhsNonContracting := [1]
  lhsBatch := []
  rhsBatch := []
  wf := dot_S1024x384_S384x256_S1024x256_1_0_0_1_n_n_wf
def dot_S1024x256_S256x2_S1024x2_1_0_0_1_n_n : DotDims S1024x256 S256x2 S1024x2 where
  lhsContracting := [1]
  rhsContracting := [0]
  lhsNonContracting := [0]
  rhsNonContracting := [1]
  lhsBatch := []
  rhsBatch := []
  wf := dot_S1024x256_S256x2_S1024x2_1_0_0_1_n_n_wf

abbrev win0_0 : Pipeline.Window sig grid0 :=
  Pipeline.Window.ofSpec (Memref.whole main_arg0) S2000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x7.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S7x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v29) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v16) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v43) S2000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v44_0) S1024x128.size cc3_transform_4 reads3_4 true true 1 stage3_4 sem3_4
    hrank3 hreads3_4 hinb3_4 nbuf3_4 (Memref.isWhole_whole _) hwx3_4 hstage3_4

abbrev win3_5 : Pipeline.Window sig grid3 :=
  Pipeline.Window.ofSpec (Memref.whole main_v44_1) S1024x128.size cc3_transform_5 reads3_5 true true 1 stage3_5 sem3_5
    hrank3 hreads3_5 hinb3_5 nbuf3_5 (Memref.isWhole_whole _) hwx3_5 hstage3_5

abbrev win3_6 : Pipeline.Window sig grid3 :=
  Pipeline.Window.ofSpec (Memref.whole main_v44_2) S1024x128.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v45) S1024x384.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg15) S384x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v46) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v48) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v49) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v50) S1x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v51) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg17) S256x2.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v47) S1x2.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v52) S1024x2.size cc4_transform_9 reads4_9 true true 1 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

class Facts : Prop extends Facts₀ where

variable [Facts]
-- ==== ReferenceIdeal.lean ====
abbrev S100000x7 : Shape := ⟨2, ![100000, 7]⟩
abbrev S2x1600000 : Shape := ⟨2, ![2, 1600000]⟩
abbrev S100000 : Shape := ⟨1, ![100000]⟩
abbrev S7x128 : Shape := ⟨2, ![7, 128]⟩
abbrev S128 : Shape := ⟨1, ![128]⟩
abbrev S128x128 : Shape := ⟨2, ![128, 128]⟩
abbrev S384x256 : Shape := ⟨2, ![384, 256]⟩
abbrev S256 : Shape := ⟨1, ![256]⟩
abbrev S256x2 : Shape := ⟨2, ![256, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x7 : Shape := ⟨2, ![1600000, 7]⟩
abbrev S100000x128 : Shape := ⟨2, ![100000, 128]⟩
abbrev S1x128 : Shape := ⟨2, ![1, 128]⟩
abbrev S1600000x128 : Shape := ⟨2, ![1600000, 128]⟩
abbrev S100000x384 : Shape := ⟨2, ![100000, 384]⟩
abbrev S1024x384 : Shape := ⟨2, ![1024, 384]⟩
abbrev S100000x1 : Shape := ⟨2, ![100000, 1]⟩
abbrev S1024x256 : Shape := ⟨2, ![1024, 256]⟩
abbrev S1x256 : Shape := ⟨2, ![1, 256]⟩
abbrev S1024x2 : Shape := ⟨2, ![1024, 2]⟩
abbrev S1x2 : Shape := ⟨2, ![1, 2]⟩

abbrev nBuf : Space → Nat
  | .hbm => 152
  | .vmem => 0
  | .smem => 0
  | _ => 0

abbrev hbmTy0_0 (i : Nat) : BufTy := match i % 128 with
  | 0 => ⟨S100000x7, .f32⟩
  | 1 => ⟨S2x1600000, .i32⟩
  | 2 => ⟨S100000, .i32⟩
  | 3 => ⟨S7x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S384x256, .f32⟩
  | 16 => ⟨S256, .f32⟩
  | 17 => ⟨S256x2, .f32⟩
  | 18 => ⟨S2, .f32⟩
  | 19 => ⟨S256, .f32⟩
  | 20 => ⟨S256, .f32⟩
  | 21 => ⟨S256, .f32⟩
  | 22 => ⟨S256, .f32⟩
  | 23 => ⟨S1x1600000, .i32⟩
  | 24 => ⟨S1600000, .i32⟩
  | 25 => ⟨S1x1600000, .i32⟩
  | 26 => ⟨S1600000, .i32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x7, .f32⟩
  | 36 => ⟨S_, .f32⟩
  | 37 => ⟨S100000x7, .f32⟩
  | 38 => ⟨S1600000x1, .i32⟩
  | 39 => ⟨S100000x7, .f32⟩
  | 40 => ⟨S_, .f32⟩
  | 41 => ⟨S100000x7, .f32⟩
  | 42 => ⟨S100000x7, .f32⟩
  | 43 => ⟨S100000x7, .f32⟩
  | 44 => ⟨S100000x128, .f32⟩
  | 45 => ⟨S1x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S100000x128, .f32⟩
  | 52 => ⟨S1x128, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S100000x128, .f32⟩
  | 76 => ⟨S1x128, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S100000x128, .f32⟩
  | 83 => ⟨S1x128, .f32⟩
  | 84 => ⟨S100000x128, .f32⟩
  | 85 => ⟨S100000x128, .f32⟩
  | 86 => ⟨S_, .f32⟩
  | 87 => ⟨S100000x128, .f32⟩
  | 88 => ⟨S100000x128, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x128, .f32⟩
  | 98 => ⟨S_, .f32⟩
  | 99 => ⟨S100000x128, .f32⟩
  | 100 => ⟨S1600000x1, .i32⟩
  | 101 => ⟨S100000x128, .f32⟩
  | 102 => ⟨S_, .f32⟩
  | 103 => ⟨S100000x128, .f32⟩
  | 104 => ⟨S100000x128, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S_, .f32⟩
  | 111 => ⟨S100000x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S100000x384, .f32⟩
  | 121 => ⟨S_, .f32⟩
  | 122 => ⟨S1024x384, .f32⟩
  | 123 => ⟨S100000x1, .i32⟩
  | 124 => ⟨S1024x384, .f32⟩
  | 125 => ⟨S1024x256, .f32⟩
  | 126 => ⟨S1x256, .f32⟩
  | 127 => ⟨S1024x256, .f32⟩
  | _ => ⟨S100000x7, .f32⟩

abbrev hbmTy0_1 (i : Nat) : BufTy := match i % 128 with
  | 0 => ⟨S1024x256, .f32⟩
  | 1 => ⟨S1x256, .f32⟩
  | 2 => ⟨S1024x256, .f32⟩
  | 3 => ⟨S1024x256, .f32⟩
  | 4 => ⟨S_, .f32⟩
  | 5 => ⟨S256, .f32⟩
  | 6 => ⟨S256, .f32⟩
  | 7 => ⟨S256, .f32⟩
  | 8 => ⟨S1x256, .f32⟩
  | 9 => ⟨S1024x256, .f32⟩
  | 10 => ⟨S1024x256, .f32⟩
  | 11 => ⟨S1x256, .f32⟩
  | 12 => ⟨S1024x256, .f32⟩
  | 13 => ⟨S1024x256, .f32⟩
  | 14 => ⟨S1x256, .f32⟩
  | 15 => ⟨S1024x256, .f32⟩
  | 16 => ⟨S1024x256, .f32⟩
  | 17 => ⟨S_, .f32⟩
  | 18 => ⟨S1024x256, .f32⟩
  | 19 => ⟨S1024x256, .f32⟩
  | 20 => ⟨S1024x2, .f32⟩
  | 21 => ⟨S1x2, .f32⟩
  | 22 => ⟨S1024x2, .f32⟩
  | 23 => ⟨S1024x2, .f32⟩
  | _ => ⟨S100000x7, .f32⟩

abbrev hbmTy (i : Nat) : BufTy := match i / 128 with
  | 0 => hbmTy0_0 i
  | 1 => hbmTy0_1 i
  | _ => ⟨S100000x7, .f32⟩

abbrev bufTy : (tb : Table) → Fin (tcTables nBuf tb) → BufTy
  | .hbm, ⟨i, _⟩ => hbmTy i
  | _, _ => ⟨S100000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_1 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_call0_cst : Ref sig .tc := ⟨.hbm, 48, rfl⟩
abbrev main_call0_v0 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_call1_cst : Ref sig .tc := ⟨.hbm, 55, rfl⟩
abbrev main_call1_v0 : Ref sig .tc := ⟨.hbm, 56, rfl⟩
abbrev main_v26 : Ref sig .tc := ⟨.hbm, 57, rfl⟩
abbrev main_c_2 : Ref sig .tc := ⟨.hbm, 58, rfl⟩
abbrev main_v27 : Ref sig .tc := ⟨.hbm, 59, rfl⟩
abbrev main_v28 : Ref sig .tc := ⟨.hbm, 60, rfl⟩
abbrev main_c_3 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_4 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst_5 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_call2_cst : Ref sig .tc := ⟨.hbm, 79, rfl⟩
abbrev main_call2_v0 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_call3_cst : Ref sig .tc := ⟨.hbm, 86, rfl⟩
abbrev main_call3_v0 : Ref sig .tc := ⟨.hbm, 87, rfl⟩
abbrev main_v49 : Ref sig .tc := ⟨.hbm, 88, rfl⟩
abbrev main_c_6 : Ref sig .tc := ⟨.hbm, 89, rfl⟩
abbrev main_v50 : Ref sig .tc := ⟨.hbm, 90, rfl⟩
abbrev main_v51 : Ref sig .tc := ⟨.hbm, 91, rfl⟩
abbrev main_c_7 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_cst_8 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_cst_9 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_call4_cst : Ref sig .tc := ⟨.hbm, 110, rfl⟩
abbrev main_call4_v0 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_call5_cst : Ref sig .tc := ⟨.hbm, 117, rfl⟩
abbrev main_call5_v0 : Ref sig .tc := ⟨.hbm, 118, rfl⟩
abbrev main_v72 : Ref sig .tc := ⟨.hbm, 119, rfl⟩
abbrev main_v73 : Ref sig .tc := ⟨.hbm, 120, rfl⟩
abbrev main_cst_10 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_cst_11 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_call6_cst : Ref sig .tc := ⟨.hbm, 145, rfl⟩
abbrev main_call6_v0 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x7 : S_.BroadcastsInDim S100000x7 (![] : Fin 0 → Fin S100000x7.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  concatenates_S100000x128_S100000x128_S100000x128_S100000x384_d1 : Shape.Concatenates [S100000x128, S100000x128, S100000x128] S100000x384 1
  bcast_S_S1024x384 : S_.BroadcastsInDim S1024x384 (![] : Fin 0 → Fin S1024x384.rank)
  bcast_S100000_S100000x1_0 : S100000.BroadcastsInDim S100000x1 (![0] : Fin 1 → Fin S100000x1.rank)
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S_S256 : S_.BroadcastsInDim S256 (![] : Fin 0 → Fin S256.rank)
  bcast_S_S1024x256 : S_.BroadcastsInDim S1024x256 (![] : Fin 0 → Fin S1024x256.rank)
  bcast_S2_S1x2_1 : S2.BroadcastsInDim S1x2 (![1] : Fin 1 → Fin S1x2.rank)
  bcast_S1x2_S1024x2_0_1 : S1x2.BroadcastsInDim S1024x2 (![0, 1] : Fin 2 → Fin S1024x2.rank)
  gather_S100000x7_S1600000x1_S1600000x7_1_0_n_n_0_1_17_wf : GatherDims.WF S100000x7 S1600000x1 S1600000x7 [1] [0] [] [0] [] 1 ![1, 7]
  scatter_S100000x7_S1600000x1_S1600000x7_1_0_0_1_wf : ScatterDims.WF S100000x7 S1600000x1 S1600000x7 [1] [0] [0] 1
  dot_S100000x7_S7x128_S100000x128_1_0_0_1_n_n_wf : DotDims.WF S100000x7 S7x128 S100000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S1024x384_S100000x1_S100000x384_1_0_0_1_wf : ScatterDims.WF S1024x384 S100000x1 S100000x384 [1] [0] [0] 1
  dot_S1024x384_S384x256_S1024x256_1_0_0_1_n_n_wf : DotDims.WF S1024x384 S384x256 S1024x256 [1] [0] [0] [1] [] []
  dot_S1024x256_S256x2_S1024x2_1_0_0_1_n_n_wf : DotDims.WF S1024x256 S256x2 S1024x2 [1] [0] [0] [1] [] []

variable [Facts₀]

def gather_S100000x7_S1600000x1_S1600000x7_1_0_n_n_0_1_17 : GatherDims S100000x7 S1600000x1 S1600000x7 where
  offsetDims := [1]
  collapsedSliceDims := [0]
  operandBatchingDims := []
  startIndicesBatchingDims := []
  startIndexMap := [0]
  indexVectorDim := 1
  sliceSizes := ![1, 7]
  wf := gather_S100000x7_S1600000x1_S1600000x7_1_0_n_n_0_1_17_wf
def scatter_S100000x7_S1600000x1_S1600000x7_1_0_0_1 : ScatterDims S100000x7 S1600000x1 S1600000x7 where
  updateWindowDims := [1]
  insertedWindowDims := [0]
  scatterDimsToOperandDims := [0]
  indexVectorDim := 1
  wf := scatter_S100000x7_S1600000x1_S1600000x7_1_0_0_1_wf
def dot_S100000x7_S7x128_S100000x128_1_0_0_1_n_n : DotDims S100000x7 S7x128 S100000x128 where
  lhsContracting := [1]
  rhsContracting := [0]
  lhsNonContracting := [0]
  rhsNonContracting := [1]
  lhsBatch := []
  rhsBatch := []
  wf := dot_S100000x7_S7x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S1024x384_S100000x1_S100000x384_1_0_0_1 : ScatterDims S1024x384 S100000x1 S100000x384 where
  updateWindowDims := [1]
  insertedWindowDims := [0]
  scatterDimsToOperandDims := [0]
  indexVectorDim := 1
  wf := scatter_S1024x384_S100000x1_S100000x384_1_0_0_1_wf
def dot_S1024x384_S384x256_S1024x256_1_0_0_1_n_n : DotDims S1024x384 S384x256 S1024x256 where
  lhsContracting := [1]
  rhsContracting := [0]
  lhsNonContracting := [0]
  rhsNonContracting := [1]
  lhsBatch := []
  rhsBatch := []
  wf := dot_S1024x384_S384x256_S1024x256_1_0_0_1_n_n_wf
def dot_S1024x256_S256x2_S1024x2_1_0_0_1_n_n : DotDims S1024x256 S256x2 S1024x2 where
  lhsContracting := [1]
  rhsContracting := [0]
  lhsNonContracting := [0]
  rhsNonContracting := [1]
  lhsBatch := []
  rhsBatch := []
  wf := dot_S1024x256_S256x2_S1024x2_1_0_0_1_n_n_wf

class Facts : Prop extends Facts₀ where

variable [Facts]
-- ==== Proof.KernelRegions.lean ====
import proofs.«429475_j15058155340592_1_alg».proof.Proof.KernelLaunch
import Idealize.ShloMosaic.Lib.Pipeline.Frame
import Idealize.ShloMosaic.Lib.Pipeline.Regions

set_option maxRecDepth 1064

noncomputable section

namespace Cert.Kernel.GenP

open Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

abbrev Outs : Type := ℕ → (r : Ref sig .tc) → (c : Dev nD) → Buf (Elt F) ((c : Thread nD τ).loc r)

variable (m : (ℓ : Loc nD τ sig) → Buf (Elt F) ℓ) (outs : Outs (F := F))

abbrev V0 (c : Dev nD) : Valuation τ sig (Elt F) := fun b => m (c, b)
abbrev V1 (c : Dev nD) : Valuation τ sig (Elt F) := StableHlo.after hostOps0 (V0 m c)
abbrev V2 (c : Dev nD) : Valuation τ sig (Elt F) := Function.update (V1 m c) main_v16 (outs 2 main_v16 c)
abbrev V3 (c : Dev nD) : Valuation τ sig (Elt F) := StableHlo.after hostOps1 (V2 m outs c)
abbrev V4 (c : Dev nD) : Valuation τ sig (Elt F) := Function.update (V3 m outs c) main_v29 (outs 4 main_v29 c)
abbrev V5 (c : Dev nD) : Valuation τ sig (Elt F) := StableHlo.after hostOps2 (V4 m outs c)
abbrev V6 (c : Dev nD) : Valuation τ sig (Elt F) := Function.update (V5 m outs c) main_v42 (outs 6 main_v42 c)
abbrev V7 (c : Dev nD) : Valuation τ sig (Elt F) := StableHlo.after hostOps3 (V6 m outs c)
abbrev V8 (c : Dev nD) : Valuation τ sig (Elt F) := Function.update (Function.update (Function.update (V7 m outs c) main_v44_0 (outs 8 main_v44_0 c)) main_v44_1 (outs 8 main_v44_1 c)) main_v44_2 (outs 8 main_v44_2 c)
abbrev V9 (c : Dev nD) : Valuation τ sig (Elt F) := StableHlo.after hostOps4 (V8 m outs c)
abbrev V10 (c : Dev nD) : Valuation τ sig (Elt F) := Function.update (V9 m outs c) main_v52 (outs 10 main_v52 c)

theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_c, main_v4, main_v5, main_c_0, main_v6, main_v7, main_v8, main_v9, main_v10, main_cst, main_v11, main_v12, main_v13, main_v14, main_v15]
theorem hostOps0_writes : (hostOps0 : List (HloOp τ sig (Elt F))).Forall fun op => op.writes ⊆ (hostOps0_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_fresh : (hostOps1 : List (HloOp τ sig (Elt F))).Forall fun op => op.fresh = ∅ := by
  simp only [List.Forall]; repeat' constructor
abbrev hostOps1_W : List (Ref sig .tc) := [main_c_1, main_v17, main_v18, main_c_2, main_v19, main_v20, main_v21, main_v22, main_v23, main_cst_3, main_v24, main_v25, main_v26, main_v27, main_v28]
theorem hostOps1_writes : (hostOps1 : List (HloOp τ sig (Elt F))).Forall fun op => op.writes ⊆ (hostOps1_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_fresh : (hostOps2 : List (HloOp τ sig (Elt F))).Forall fun op => op.fresh = ∅ := by
  simp only [List.Forall]; repeat' constructor
abbrev hostOps2_W : List (Ref sig .tc) := [main_c_4, main_v30, main_v31, main_c_5, main_v32, main_v33, main_v34, main_v35, main_v36, main_cst_6, main_v37, main_v38, main_v39, main_v40, main_v41]
theorem hostOps2_writes : (hostOps2 : List (HloOp τ sig (Elt F))).Forall fun op => op.writes ⊆ (hostOps2_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_fresh : (hostOps3 : List (HloOp τ sig (Elt F))).Forall fun op => op.fresh = ∅ := by
  simp only [List.Forall]; repeat' constructor
abbrev hostOps3_W : List (Ref sig .tc) := [main_v43]
theorem hostOps3_writes : (hostOps3 : List (HloOp τ sig (Elt F))).Forall fun op => op.writes ⊆ (hostOps3_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_fresh : (hostOps4 : List (HloOp τ sig (Elt F))).Forall fun op => op.fresh = ∅ := by
  simp only [List.Forall]; repeat' constructor
abbrev hostOps4_W : List (Ref sig .tc) := [main_v45, main_v46, main_v47, main_v48, main_v49, main_v50, main_v51]
theorem hostOps4_writes : (hostOps4 : List (HloOp τ sig (Elt F))).Forall fun op => op.writes ⊆ (hostOps4_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ ([main_v16] : List (Ref sig .tc))) : V2 m outs c r = V1 m c r := by
  simp only [V2, Function.update_of_ne (StableHlo.devRef_ne_of_ne (List.ne_of_not_mem_cons h) : (Proc.devRef .tc r : DevRef τ sig) ≠ Proc.devRef .tc main_v16)]
theorem V3_of (c : Dev nD) (r : Ref sig .tc) (h : r ∉ hostOps1_W) : V3 m outs c r = V2 m outs c r :=
  StableHlo.after_of_writes_sub hostOps1 _ hostOps1_writes h
theorem V4_of (c : Dev nD) (r : Ref sig .tc) (h : r ∉ ([main_v29] : List (Ref sig .tc))) : V4 m outs c r = V3 m outs c r := by
  simp only [V4, Function.update_of_ne (StableHlo.devRef_ne_of_ne (List.ne_of_not_mem_cons h) : (Proc.devRef .tc r : DevRef τ sig) ≠ Proc.devRef .tc main_v29)]
theorem V5_of (c : Dev nD) (r : Ref sig .tc) (h : r ∉ hostOps2_W) : V5 m outs c r = V4 m outs c r :=
  StableHlo.after_of_writes_sub hostOps2 _ hostOps2_writes h
theorem V6_of (c : Dev nD) (r : Ref sig .tc) (h : r ∉ ([main_v42] : List (Ref sig .tc))) : V6 m outs c r = V5 m outs c r := by
  simp only [V6, Function.update_of_ne (StableHlo.devRef_ne_of_ne (List.ne_of_not_mem_cons h) : (Proc.devRef .tc r : DevRef τ sig) ≠ Proc.devRef .tc main_v42)]
theorem V7_of (c : Dev nD) (r : Ref sig .tc) (h : r ∉ hostOps3_W) : V7 m outs c r = V6 m outs c r :=
  StableHlo.after_of_writes_sub hostOps3 _ hostOps3_writes h
theorem V8_of (c : Dev nD) (r : Ref sig .tc) (h : r ∉ ([main_v44_0, main_v44_1, main_v44_2] : List (Ref sig .tc))) : V8 m outs c r = V7 m outs c r := by
  simp only [V8, Function.update_of_ne (StableHlo.devRef_ne_of_ne (List.ne_of_not_mem_cons h) : (Proc.devRef .tc r : DevRef τ sig) ≠ Proc.devRef .tc main_v44_0), Function.update_of_ne (StableHlo.devRef_ne_of_ne (List.ne_of_not_mem_cons (List.not_mem_of_not_mem_cons h)) : (Proc.devRef .tc r : DevRef τ sig) ≠ Proc.devRef .tc main_v44_1), Function.update_of_ne (StableHlo.devRef_ne_of_ne (List.ne_of_not_mem_cons (List.not_mem_of_not_mem_cons (List.not_mem_of_not_mem_cons h))) : (Proc.devRef .tc r : DevRef τ sig) ≠ Proc.devRef .tc main_v44_2)]
theorem V9_of (c : Dev nD) (r : Ref sig .tc) (h : r ∉ hostOps4_W) : V9 m outs c r = V8 m outs c r :=
  StableHlo.after_of_writes_sub hostOps4 _ hostOps4_writes h
theorem V10_of (c : Dev nD) (r : Ref sig .tc) (h : r ∉ ([main_v52] : List (Ref sig .tc))) : V10 m outs c r = V9 m outs c r := by
  simp only [V10, Function.update_of_ne (StableHlo.devRef_ne_of_ne (List.ne_of_not_mem_cons h) : (Proc.devRef .tc r : DevRef τ sig) ≠ Proc.devRef .tc main_v52)]

/-- A buffer that no host stretch writes and no region may change ends as launched. -/
theorem V10_kept (c : Dev nD) (r : Ref sig .tc)
    (h : ∀ l ∈ [hostOps0_W, [main_v16], hostOps1_W, [main_v29], hostOps2_W, [main_v42], hostOps3_W, [main_v44_0, main_v44_1, main_v44_2], hostOps4_W, [main_v52]], r ∉ l) :
    V10 m outs c r = m ((c : Thread nD τ).loc r) :=
  (V10_of m outs c r (h _ (by decide))).trans <| (V9_of m outs c r (h _ (by decide))).trans <| (V8_of m outs c r (h _ (by decide))).trans <|
  (V7_of m outs c r (h _ (by decide))).trans <| (V6_of m outs c r (h _ (by decide))).trans <| (V5_of m outs c r (h _ (by decide))).trans <|
  (V4_of m outs c r (h _ (by decide))).trans <| (V3_of m outs c r (h _ (by decide))).trans <| (V2_of m outs c r (h _ (by decide))).trans <|
  (V1_of m c r (h _ (by decide))).trans rfl

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 6 → Dev nD → sProp (MT nD τ sig Ix (Elt F) ℕ U Lvl))

def seg0 : HostSeg (Ix := Ix) (Name := ℕ) (U := U) (Lvl := Lvl) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (E 0)
def seg2 : HostSeg (Ix := Ix) (Name := ℕ) (U := U) (Lvl := Lvl) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m outs) (E 1)
def seg4 : HostSeg (Ix := Ix) (Name := ℕ) (U := U) (Lvl := Lvl) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (V4 m outs) (E 2)
def seg6 : HostSeg (Ix := Ix) (Name := ℕ) (U := U) (Lvl := Lvl) (pcfgs (F := F)) defs₀ 𝒱₀ L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (V6 m outs) (E 3)
def seg8 : HostSeg (Ix := Ix) (Name := ℕ) (U := U) (Lvl := Lvl) (pcfgs (F := F)) defs₀ 𝒱₀ L lv :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (V8 m outs) (E 4)

end Segs

section

variable {Ix : Type} [DecidableEq Ix] {U : Type} [URA U] {Lvl : Type} [Preorder Lvl]

abbrev adm : (p : Fin 5) → (pcfgs (F := F) p).Adm := fun p => (cfgs p).toPCfg_adm

abbrev segs (𝒱₀ : Variants) (L : GSem nD τ sig → Finset Ix) (lv : GSem nD τ sig → Ix → Lvl) (E : Fin 6 → Dev nD → sProp (MT nD τ sig Ix (Elt F) ℕ U Lvl)) (ι : Ix)
    (pdats : (p : Fin 5) → (c : Dev nD) → Dat τ (Elt F) Ix ℕ U Lvl (cfgs p) c) (R0 : RegionSeg (pcfgs (F := F)) adm pdats ι defs₀ 𝒱₀ L lv 0) (R1 : RegionSeg (pcfgs (F := F)) adm pdats ι defs₀ 𝒱₀ L lv 1) (R2 : RegionSeg (pcfgs (F := F)) adm pdats ι defs₀ 𝒱₀ L lv 2) (R3 : RegionSeg (pcfgs (F := F)) adm pdats ι defs₀ 𝒱₀ L lv 3) (R4 : RegionSeg (pcfgs (F := F)) adm pdats ι defs₀ 𝒱₀ L lv 4) (c : Dev nD) :
    List (Seg (pcfgs (F := F)) adm pdats ι defs₀ 𝒱₀ L lv) :=
  [.host (seg0 m 𝒱₀ L lv E), .region R0, .host (seg2 m outs 𝒱₀ L lv E), .region R1, .host (seg4 m outs 𝒱₀ L lv E), .region R2, .host (seg6 m outs 𝒱₀ L lv E), .region R3, .host (seg8 m outs 𝒱₀ L lv E), .region R4]

end

end Cert.Kernel.GenP

end
-- ==== Proof.Kernel.R0.lean ====
import proofs.«429475_j15058155340592_1_alg».proof.Proof.KernelLaunch
import proofs.«429475_j15058155340592_1_alg».proof.Proof.Gen.Kernel.Skeleton
import proofs.«429475_j15058155340592_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x7 := Rect.unit (s := S2000x7) ![0, 0] S2000x7.size inb_S2000x7_S2000x7_0_0
abbrev r0_1 : Rect S7x128 := Rect.unit (s := S7x128) ![0, 0] S7x128.size inb_S7x128_S7x128_0_0
abbrev r0_2 : Rect S1x128 := Rect.unit (s := S1x128) ![0, 0] S1x128.size inb_S1x128_S1x128_0_0
abbrev r0_3 : Rect S128x128 := Rect.unit (s := S128x128) ![0, 0] S128x128.size inb_S128x128_S128x128_0_0
abbrev r0_4 : Rect S2000x128 := Rect.unit (s := S2000x128) ![0, 0] S2000x128.size inb_S2000x128_S2000x128_0_0

def out0_6 (x0 : Vec F S2000x7 .f32) (x1 : Vec F S2000x7 .f32) (x2 : Vec F S7x128 .f32) (x3 : Vec F S1x128 .f32) (x4 : Vec F S128x128 .f32) (x5 : Vec F S1x128 .f32) : Vec F S2000x128 .f32 :=
  View.canon [⟨r0_4, k0_pay1 (View.ld x0 r0_0) (View.ld x1 r0_0) (View.ld x2 r0_1) (View.ld x3 r0_2) (View.ld x4 r0_3) (View.ld x5 r0_2)⟩]

set_option maxHeartbeats 1000000 in
theorem sound_kernel0 (c : Dev nD) {E : Set ℕ} {i : grid0.Coords} {a1 a2 : Memref sig .tc .vmem S2000x7 .f32} {a3 : Memref sig .tc .vmem S7x128 .f32} {a4 a6 : Memref sig .tc .vmem S1x128 .f32} {a5 : Memref sig .tc .vmem S128x128 .f32} {a7 : Memref sig .tc .vmem S2000x128 .f32}
    {h1 : a1.IsWhole} {h2 : a2.IsWhole} {h3 : a3.IsWhole} {h4 : a4.IsWhole} {h5 : a5.IsWhole} {h6 : a6.IsWhole} {h7 : a7.IsWhole}
    (x0 x1 : Vec F S2000x7 .f32) (x2 : Vec F S7x128 .f32) (x3 : Vec F S1x128 .f32) (x4 : Vec F S128x128 .f32) (x5 : Vec F S1x128 .f32) {K : PUnit → sProp 𝕄} :
    iprop((iprop(owns (c : Thread nD τ) a7 fullShare (out0_6 x0 x1 x2 x3 x4 x5) ∗ owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5) -∗ K ⟨⟩)
        ∗ (∃ d, owns (c : Thread nD τ) a7 fullShare d) ∗ owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5)
      ⊢ wp frame (wpE (defs₀ (F := F)) Variants.none c none) E (cc0__gin_layer_kernel i a1 h1 a2 h2 a3 h3 a4 h4 a5 h5 a6 h6 a7 h7) K := by
  simp only [cc0__gin_layer_kernel_eq_skeleton]; unfold cc0__gin_layer_kernel_skel owns
  iintro ⟨Hk, ⟨%d6, %f6, -, H6⟩, ⟨%f0, %hf0, H0⟩, ⟨%f1, %hf1, H1⟩, ⟨%f2, %hf2, H2⟩, ⟨%f3, %hf3, H3⟩, ⟨%f4, %hf4, H4⟩, ⟨%f5, %hf5, H5⟩⟩
  subst hf0 hf1 hf2 hf3 hf4 hf5
  sl_exec
  sl_step
  iapply Hk
  isplitl [H6]
  · iexists _; isplitr; swap; · iexact H6
    ipureintro; exact View.read_writes_eq_canon _ _ _ (View.cover_of_tiled _ S2000x128.size (by rfl))
  sl_close

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := rfl

theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0 (c : Dev nD) (w : Fin cfg0.W) (hw : w ≠ 6) (t : Fin cfg0.N) (d) : (dat0 V c).before w t d = (dat0 V c).after w t := by
  fin_cases w <;> first | exact absurd rfl hw | exact ((dat0 V c).before_in_eq_fetched _ rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0, show (dat0 V c).owesAt () t.succ = (dat0 V c).owesAt () t.castSucc from rfl]
  generalize (dat0 V c).owesAt () t.castSucc = O
  simp (disch := decide) only [before0]
  dsimp only [dat0]
  show _ ⊢ wp _ _ _ (bodyAt0 t) _
  iintro ⟨HΦ, Ho, ⟨%_, H0⟩, ⟨%_, H1⟩, ⟨%_, H2⟩, ⟨%_, H3⟩, ⟨%_, H4⟩, ⟨%_, H5⟩, ⟨%_, H6⟩⟩
  iapply sound_kernel0 c (iblk0 V c 0 t) (iblk0 V c 1 t) (iblk0 V c 2 t) (iblk0 V c 3 t) (iblk0 V c 4 t) (iblk0 V c 5 t)
  isplitl [HΦ Ho]
  · iintro ⟨H6, H0, H1, H2, H3, H4, H5⟩; sl_close
  sl_close

end Cert.Kernel.Hand

end
-- ==== Proof.Kernel.R1.lean ====
import proofs.«429475_j15058155340592_1_alg».proof.Proof.KernelLaunch
import proofs.«429475_j15058155340592_1_alg».proof.Proof.Gen.Kernel.Skeleton
import proofs.«429475_j15058155340592_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x128 := Rect.unit (s := S2000x128) ![0, 0] S2000x128.size inb_S2000x128_S2000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0

def out1_6 (x0 : Vec F S2000x128 .f32) (x1 : Vec F S2000x128 .f32) (x2 : Vec F S128x128 .f32) (x3 : Vec F S1x128 .f32) (x4 : Vec F S128x128 .f32) (x5 : Vec F S1x128 .f32) : Vec F S2000x128 .f32 :=
  View.canon [⟨r1_0, k1_pay1 (View.ld x0 r1_0) (View.ld x1 r1_0) (View.ld x2 r1_1) (View.ld x3 r1_2) (View.ld x4 r1_1) (View.ld x5 r1_2)⟩]

set_option maxHeartbeats 1000000 in
theorem sound_kernel1 (c : Dev nD) {E : Set ℕ} {i : grid1.Coords} {a1 a2 a7 : Memref sig .tc .vmem S2000x128 .f32} {a3 a5 : Memref sig .tc .vmem S128x128 .f32} {a4 a6 : Memref sig .tc .vmem S1x128 .f32}
    {h1 : a1.IsWhole} {h2 : a2.IsWhole} {h3 : a3.IsWhole} {h4 : a4.IsWhole} {h5 : a5.IsWhole} {h6 : a6.IsWhole} {h7 : a7.IsWhole}
    (x0 x1 : Vec F S2000x128 .f32) (x2 : Vec F S128x128 .f32) (x3 : Vec F S1x128 .f32) (x4 : Vec F S128x128 .f32) (x5 : Vec F S1x128 .f32) {K : PUnit → sProp 𝕄} :
    iprop((iprop(owns (c : Thread nD τ) a7 fullShare (out1_6 x0 x1 x2 x3 x4 x5) ∗ owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5) -∗ K ⟨⟩)
        ∗ (∃ d, owns (c : Thread nD τ) a7 fullShare d) ∗ owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5)
      ⊢ wp frame (wpE (defs₀ (F := F)) Variants.none c none) E (cc1__gin_layer_kernel i a1 h1 a2 h2 a3 h3 a4 h4 a5 h5 a6 h6 a7 h7) K := by
  simp only [cc1__gin_layer_kernel_eq_skeleton]; unfold cc1__gin_layer_kernel_skel owns
  iintro ⟨Hk, ⟨%d6, %f6, -, H6⟩, ⟨%f0, %hf0, H0⟩, ⟨%f1, %hf1, H1⟩, ⟨%f2, %hf2, H2⟩, ⟨%f3, %hf3, H3⟩, ⟨%f4, %hf4, H4⟩, ⟨%f5, %hf5, H5⟩⟩
  subst hf0 hf1 hf2 hf3 hf4 hf5
  sl_exec
  sl_step
  iapply Hk
  isplitl [H6]
  · iexists _; isplitr; swap; · iexact H6
    ipureintro; exact View.read_writes_eq_canon _ _ _ (View.cover_of_tiled _ S2000x128.size (by rfl))
  sl_close

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := rfl

theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1 (c : Dev nD) (w : Fin cfg1.W) (hw : w ≠ 6) (t : Fin cfg1.N) (d) : (dat1 V c).before w t d = (dat1 V c).after w t := by
  fin_cases w <;> first | exact absurd rfl hw | exact ((dat1 V c).before_in_eq_fetched _ rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1, show (dat1 V c).owesAt () t.succ = (dat1 V c).owesAt () t.castSucc from rfl]
  generalize (dat1 V c).owesAt () t.castSucc = O
  simp (disch := decide) only [before1]
  dsimp only [dat1]
  show _ ⊢ wp _ _ _ (bodyAt1 t) _
  iintro ⟨HΦ, Ho, ⟨%_, H0⟩, ⟨%_, H1⟩, ⟨%_, H2⟩, ⟨%_, H3⟩, ⟨%_, H4⟩, ⟨%_, H5⟩, ⟨%_, H6⟩⟩
  iapply sound_kernel1 c (iblk1 V c 0 t) (iblk1 V c 1 t) (iblk1 V c 2 t) (iblk1 V c 3 t) (iblk1 V c 4 t) (iblk1 V c 5 t)
  isplitl [HΦ Ho]
  · iintro ⟨H6, H0, H1, H2, H3, H4, H5⟩; sl_close
  sl_close

end Cert.Kernel.Hand

end
-- ==== Proof.Kernel.R2.lean ====
import proofs.«429475_j15058155340592_1_alg».proof.Proof.KernelLaunch
import proofs.«429475_j15058155340592_1_alg».proof.Proof.Gen.Kernel.Skeleton
import proofs.«429475_j15058155340592_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x128 := Rect.unit (s := S2000x128) ![0, 0] S2000x128.size inb_S2000x128_S2000x128_0_0
abbrev r2_1 : Rect S128x128 := Rect.unit (s := S128x128) ![0, 0] S128x128.size inb_S128x128_S128x128_0_0
abbrev r2_2 : Rect S1x128 := Rect.unit (s := S1x128) ![0, 0] S1x128.size inb_S1x128_S1x128_0_0

def out2_6 (x0 : Vec F S2000x128 .f32) (x1 : Vec F S2000x128 .f32) (x2 : Vec F S128x128 .f32) (x3 : Vec F S1x128 .f32) (x4 : Vec F S128x128 .f32) (x5 : Vec F S1x128 .f32) : Vec F S2000x128 .f32 :=
  View.canon [⟨r2_0, k2_pay1 (View.ld x0 r2_0) (View.ld x1 r2_0) (View.ld x2 r2_1) (View.ld x3 r2_2) (View.ld x4 r2_1) (View.ld x5 r2_2)⟩]

set_option maxHeartbeats 1000000 in
theorem sound_kernel2 (c : Dev nD) {E : Set ℕ} {i : grid2.Coords} {a1 a2 a7 : Memref sig .tc .vmem S2000x128 .f32} {a3 a5 : Memref sig .tc .vmem S128x128 .f32} {a4 a6 : Memref sig .tc .vmem S1x128 .f32}
    {h1 : a1.IsWhole} {h2 : a2.IsWhole} {h3 : a3.IsWhole} {h4 : a4.IsWhole} {h5 : a5.IsWhole} {h6 : a6.IsWhole} {h7 : a7.IsWhole}
    (x0 x1 : Vec F S2000x128 .f32) (x2 : Vec F S128x128 .f32) (x3 : Vec F S1x128 .f32) (x4 : Vec F S128x128 .f32) (x5 : Vec F S1x128 .f32) {K : PUnit → sProp 𝕄} :
    iprop((iprop(owns (c : Thread nD τ) a7 fullShare (out2_6 x0 x1 x2 x3 x4 x5) ∗ owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5) -∗ K ⟨⟩)
        ∗ (∃ d, owns (c : Thread nD τ) a7 fullShare d) ∗ owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5)
      ⊢ wp frame (wpE (defs₀ (F := F)) Variants.none c none) E (cc2__gin_layer_kernel i a1 h1 a2 h2 a3 h3 a4 h4 a5 h5 a6 h6 a7 h7) K := by
  simp only [cc2__gin_layer_kernel_eq_skeleton]; unfold cc2__gin_layer_kernel_skel owns
  iintro ⟨Hk, ⟨%d6, %f6, -, H6⟩, ⟨%f0, %hf0, H0⟩, ⟨%f1, %hf1, H1⟩, ⟨%f2, %hf2, H2⟩, ⟨%f3, %hf3, H3⟩, ⟨%f4, %hf4, H4⟩, ⟨%f5, %hf5, H5⟩⟩
  subst hf0 hf1 hf2 hf3 hf4 hf5
  sl_exec
  sl_step
  iapply Hk
  isplitl [H6]
  · iexists _; isplitr; swap; · iexact H6
    ipureintro; exact View.read_writes_eq_canon _ _ _ (View.cover_of_tiled _ S2000x128.size (by rfl))
  sl_close

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := rfl

theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2 (c : Dev nD) (w : Fin cfg2.W) (hw : w ≠ 6) (t : Fin cfg2.N) (d) : (dat2 V c).before w t d = (dat2 V c).after w t := by
  fin_cases w <;> first | exact absurd rfl hw | exact ((dat2 V c).before_in_eq_fetched _ rfl (fun _ => rfl) (fun _ _ _ => rfl) (fun _ => rfl) t d).trans rfl

theorem body_obligation2 (c : Dev nD) : BodyObligation (dat2 (F := F) V c) (defs₀ (F := F)) Variants.none () Set.univ := fun t => by
  rw [bigSep_W2, bigSep_W2, show (dat2 V c).owesAt () t.succ = (dat2 V c).owesAt () t.castSucc from rfl]
  generalize (dat2 V c).owesAt () t.castSucc = O
  simp (disch := decide) only [before2]
  dsimp only [dat2]
  show _ ⊢ wp _ _ _ (bodyAt2 t) _
  iintro ⟨HΦ, Ho, ⟨%_, H0⟩, ⟨%_, H1⟩, ⟨%_, H2⟩, ⟨%_, H3⟩, ⟨%_, H4⟩, ⟨%_, H5⟩, ⟨%_, H6⟩⟩
  iapply sound_kernel2 c (iblk2 V c 0 t) (iblk2 V c 1 t) (iblk2 V c 2 t) (iblk2 V c 3 t) (iblk2 V c 4 t) (iblk2 V c 5 t)
  isplitl [HΦ Ho]
  · iintro ⟨H6, H0, H1, H2, H3, H4, H5⟩; sl_close
  sl_close

end Cert.Kernel.Hand

end
-- ==== Proof.Kernel.R3.lean ====
import proofs.«429475_j15058155340592_1_alg».proof.Proof.KernelLaunch
import proofs.«429475_j15058155340592_1_alg».proof.Proof.Gen.Kernel.Skeleton
import proofs.«429475_j15058155340592_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val % 50 = 0 :=
  (by decide +kernel : ∀ t : Fin grid3.N, cond3_0 (grid3.coords t) ↔ t.val % 50 = 0)

abbrev ms3_0 (t : Fin cfg3.N) : Memref sig .tc .vmem S2000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2000x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2000x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2000x1 .i32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1024x128 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1024x128 .f32 := win3_6.stage (cfg3.slots t 6)
abbrev hs3_6 (t : Fin cfg3.N) : (ms3_6 t).IsWhole := hstage3_6 ((cfg3.slots t 6).cast nbuf3_6)

section
variable (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x1 .i32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole)

section
variable (hc0 : cond3_0 i) (x0 : Vec F S2000x128 .f32) (x1 : Vec F S2000x128 .f32) (x2 : Vec F S2000x128 .f32) (x3 : Vec F S2000x1 .i32)
include hc0

set_option maxHeartbeats 1000000 in
noncomputable def kernelRun3_A :
    { L : List (View.Piece (Elt F) S1024x128 .f32) × List (View.Piece (Elt F) S1024x128 .f32) × List (View.Piece (Elt F) S1024x128 .f32) //
      (∀ y, ∃ pc ∈ L.1, y ∈ pc.1.set) ∧ (∀ y, ∃ pc ∈ L.2.1, y ∈ pc.1.set) ∧ (∀ y, ∃ pc ∈ L.2.2, y ∈ pc.1.set) ∧
      ∀ (E : Set ℕ) (K : PUnit → sProp 𝕄),
        iprop(owns c.tc arg1 fullShare x0 ∗ owns c.tc arg2 fullShare x1 ∗ owns c.tc arg3 fullShare x2 ∗ owns c.tc arg4 fullShare x3
            ∗ (∃ d, owns c.tc arg5 fullShare d) ∗ (∃ d, owns c.tc arg6 fullShare d) ∗ (∃ d, owns c.tc arg7 fullShare d)
            ∗ (iprop(owns c.tc arg1 fullShare x0 ∗ owns c.tc arg2 fullShare x1 ∗ owns c.tc arg3 fullShare x2 ∗ owns c.tc arg4 fullShare x3
                ∗ (∃ f, arg5.view.loc c.tc ↦[arg5.view.set]{fullShare} arg5.view.writes (Elt F) f L.1)
                ∗ (∃ f, arg6.view.loc c.tc ↦[arg6.view.set]{fullShare} arg6.view.writes (Elt F) f L.2.1)
                ∗ (∃ f, arg7.view.loc c.tc ↦[arg7.view.set]{fullShare} arg7.view.writes (Elt F) f L.2.2)) -∗ K ⟨⟩))
          ⊢ wp frame (wpE (defs₀ (F := F)) Variants.none c none) E (cc3__pool_kernel i arg1 harg1 arg2 harg2 arg3 harg3 arg4 harg4 arg5 harg5 arg6 harg6 arg7 harg7) K } := by
  refine ⟨(?_, ?_, ?_), ?c4, ?c5, ?c6, fun E K => ?run⟩
  case run =>
    simp only [cc3__pool_kernel_eq_skeleton]; unfold cc3__pool_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6
  all_goals exact fun y => View.cover_of_tiledL _ S1024x128.size (by sl_kernel_rfl) y

def out3_A_4 : Vec F S1024x128 .f32 :=
  View.canon (kernelRun3_A c i arg1 harg1 arg2 harg2 arg3 harg3 arg4 harg4 arg5 harg5 arg6 harg6 arg7 harg7 hc0 x0 x1 x2 x3).1.1
def out3_A_5 : Vec F S1024x128 .f32 :=
  View.canon (kernelRun3_A c i arg1 harg1 arg2 harg2 arg3 harg3 arg4 harg4 arg5 harg5 arg6 harg6 arg7 harg7 hc0 x0 x1 x2 x3).1.2.1
def out3_A_6 : Vec F S1024x128 .f32 :=
  View.canon (kernelRun3_A c i arg1 harg1 arg2 harg2 arg3 harg3 arg4 harg4 arg5 harg5 arg6 harg6 arg7 harg7 hc0 x0 x1 x2 x3).1.2.2
end

section
variable (hc0 : ¬cond3_0 i) (x0 : Vec F S2000x128 .f32) (x1 : Vec F S2000x128 .f32) (x2 : Vec F S2000x128 .f32) (x3 : Vec F S2000x1 .i32) (xo4 : Vec F S1024x128 .f32) (xo5 : Vec F S1024x128 .f32) (xo6 : Vec F S1024x128 .f32)
include hc0

set_option maxHeartbeats 1000000 in
noncomputable def kernelRun3_B :
    { L : List (View.Piece (Elt F) S1024x128 .f32) × List (View.Piece (Elt F) S1024x128 .f32) × List (View.Piece (Elt F) S1024x128 .f32) //
      (∀ y, ∃ pc ∈ L.1, y ∈ pc.1.set) ∧ (∀ y, ∃ pc ∈ L.2.1, y ∈ pc.1.set) ∧ (∀ y, ∃ pc ∈ L.2.2, y ∈ pc.1.set) ∧
      ∀ (E : Set ℕ) (K : PUnit → sProp 𝕄),
        iprop(owns c.tc arg1 fullShare x0 ∗ owns c.tc arg2 fullShare x1 ∗ owns c.tc arg3 fullShare x2 ∗ owns c.tc arg4 fullShare x3
            ∗ owns c.tc arg5 fullShare xo4 ∗ owns c.tc arg6 fullShare xo5 ∗ owns c.tc arg7 fullShare xo6
            ∗ (iprop(owns c.tc arg1 fullShare x0 ∗ owns c.tc arg2 fullShare x1 ∗ owns c.tc arg3 fullShare x2 ∗ owns c.tc arg4 fullShare x3
                ∗ (∃ f, arg5.view.loc c.tc ↦[arg5.view.set]{fullShare} arg5.view.writes (Elt F) f L.1)
                ∗ (∃ f, arg6.view.loc c.tc ↦[arg6.view.set]{fullShare} arg6.view.writes (Elt F) f L.2.1)
                ∗ (∃ f, arg7.view.loc c.tc ↦[arg7.view.set]{fullShare} arg7.view.writes (Elt F) f L.2.2)) -∗ K ⟨⟩))
          ⊢ wp frame (wpE (defs₀ (F := F)) Variants.none c none) E (cc3__pool_kernel i arg1 harg1 arg2 harg2 arg3 harg3 arg4 harg4 arg5 harg5 arg6 harg6 arg7 harg7) K } := by
  refine ⟨(?_, ?_, ?_), ?c4, ?c5, ?c6, fun E K => ?run⟩
  case run =>
    simp only [cc3__pool_kernel_eq_skeleton]; unfold cc3__pool_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6
  all_goals exact fun y => View.cover_of_tiledL _ S1024x128.size (by sl_kernel_rfl) y

def out3_B_4 : Vec F S1024x128 .f32 :=
  View.canon (kernelRun3_B c i arg1 harg1 arg2 harg2 arg3 harg3 arg4 harg4 arg5 harg5 arg6 harg6 arg7 harg7 hc0 x0 x1 x2 x3 xo4 xo5 xo6).1.1
def out3_B_5 : Vec F S1024x128 .f32 :=
  View.canon (kernelRun3_B c i arg1 harg1 arg2 harg2 arg3 harg3 arg4 harg4 arg5 harg5 arg6 harg6 arg7 harg7 hc0 x0 x1 x2 x3 xo4 xo5 xo6).1.2.1
def out3_B_6 : Vec F S1024x128 .f32 :=
  View.canon (kernelRun3_B c i arg1 harg1 arg2 harg2 arg3 harg3 arg4 harg4 arg5 harg5 arg6 harg6 arg7 harg7 hc0 x0 x1 x2 x3 xo4 xo5 xo6).1.2.2
end
end

def outA3 (c : Dev nD) (t : Fin cfg3.N) (h0 : t.val % 50 = 0) : Vec F S1024x128 .f32 × Vec F S1024x128 .f32 × Vec F S1024x128 .f32 :=
  (out3_A_4 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) ((hcond3_0 t).mpr h0) (iblk3 V c 0 t) (iblk3 V c 1 t) (iblk3 V c 2 t) (iblk3 V c 3 t),
       out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) ((hcond3_0 t).mpr h0) (iblk3 V c 0 t) (iblk3 V c 1 t) (iblk3 V c 2 t) (iblk3 V c 3 t),
       out3_A_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) ((hcond3_0 t).mpr h0) (iblk3 V c 0 t) (iblk3 V c 1 t) (iblk3 V c 2 t) (iblk3 V c 3 t))

def outB3 (c : Dev nD) (t : Fin cfg3.N) (h0 : ¬t.val % 50 = 0) (xo : Vec F S1024x128 .f32 × Vec F S1024x128 .f32 × Vec F S1024x128 .f32) : Vec F S1024x128 .f32 × Vec F S1024x128 .f32 × Vec F S1024x128 .f32 :=
  (out3_B_4 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (fun h => h0 ((hcond3_0 t).mp h)) (iblk3 V c 0 t) (iblk3 V c 1 t) (iblk3 V c 2 t) (iblk3 V c 3 t) xo.1 xo.2.1 xo.2.2,
       out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (fun h => h0 ((hcond3_0 t).mp h)) (iblk3 V c 0 t) (iblk3 V c 1 t) (iblk3 V c 2 t) (iblk3 V c 3 t) xo.1 xo.2.1 xo.2.2,
       out3_B_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (fun h => h0 ((hcond3_0 t).mp h)) (iblk3 V c 0 t) (iblk3 V c 1 t) (iblk3 V c 2 t) (iblk3 V c 3 t) xo.1 xo.2.1 xo.2.2)

def outsAt3 (c : Dev nD) : (n : ℕ) → n < cfg3.N → Vec F S1024x128 .f32 × Vec F S1024x128 .f32 × Vec F S1024x128 .f32
  | 0, hn => outA3 V c ⟨0, hn⟩ (Nat.zero_mod _)
  | n + 1, hn => if h0 : (n + 1) % 50 = 0 then outA3 V c ⟨n + 1, hn⟩ h0 else outB3 V c ⟨n + 1, hn⟩ h0 (outsAt3 c n (Nat.lt_of_succ_lt hn))

theorem outsAt3_A (c : Dev nD) (t : Fin cfg3.N) (h0 : t.val % 50 = 0) :
    outsAt3 V c t.val t.isLt =
      (out3_A_4 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) ((hcond3_0 t).mpr h0) (iblk3 V c 0 t) (iblk3 V c 1 t) (iblk3 V c 2 t) (iblk3 V c 3 t),
       out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) ((hcond3_0 t).mpr h0) (iblk3 V c 0 t) (iblk3 V c 1 t) (iblk3 V c 2 t) (iblk3 V c 3 t),
       out3_A_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) ((hcond3_0 t).mpr h0) (iblk3 V c 0 t) (iblk3 V c 1 t) (iblk3 V c 2 t) (iblk3 V c 3 t)) := by
  obtain ⟨n, hn⟩ := t
  cases n with
  | zero => exact rfl
  | succ n => exact (dif_pos h0).trans rfl

theorem outsAt3_B (c : Dev nD) (t : Fin cfg3.N) (h0 : ¬t.val % 50 = 0) :
    outsAt3 V c t.val t.isLt =
      (out3_B_4 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (fun h => h0 ((hcond3_0 t).mp h)) (iblk3 V c 0 t) (iblk3 V c 1 t) (iblk3 V c 2 t) (iblk3 V c 3 t) (outsAt3 V c (t.val - 1) (Nat.lt_of_le_of_lt (Nat.sub_le _ _) t.isLt)).1 (outsAt3 V c (t.val - 1) (Nat.lt_of_le_of_lt (Nat.sub_le _ _) t.isLt)).2.1 (outsAt3 V c (t.val - 1) (Nat.lt_of_le_of_lt (Nat.sub_le _ _) t.isLt)).2.2,
       out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (fun h => h0 ((hcond3_0 t).mp h)) (iblk3 V c 0 t) (iblk3 V c 1 t) (iblk3 V c 2 t) (iblk3 V c 3 t) (outsAt3 V c (t.val - 1) (Nat.lt_of_le_of_lt (Nat.sub_le _ _) t.isLt)).1 (outsAt3 V c (t.val - 1) (Nat.lt_of_le_of_lt (Nat.sub_le _ _) t.isLt)).2.1 (outsAt3 V c (t.val - 1) (Nat.lt_of_le_of_lt (Nat.sub_le _ _) t.isLt)).2.2,
       out3_B_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (fun h => h0 ((hcond3_0 t).mp h)) (iblk3 V c 0 t) (iblk3 V c 1 t) (iblk3 V c 2 t) (iblk3 V c 3 t) (outsAt3 V c (t.val - 1) (Nat.lt_of_le_of_lt (Nat.sub_le _ _) t.isLt)).1 (outsAt3 V c (t.val - 1) (Nat.lt_of_le_of_lt (Nat.sub_le _ _) t.isLt)).2.1 (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
    | ⟨5, _⟩ => (outsAt3 V c t.val t.isLt).2.1
    | ⟨6, _⟩ => (outsAt3 V c t.val t.isLt).2.2
  Φ _ := Pipeline.ΦA spec3 c
  q _ := fullShare
  owed _ := 0

theorem A_eq3 (c : Dev nD) (w : Fin cfg3.W) : (dat3 V c).A w = V c (Pipeline.arrRef spec3 w) := rfl

theorem after3_4 (c : Dev nD) (t : Fin cfg3.N) : (dat3 V c).after 4 t = (outsAt3 V c t.val t.isLt).1 := by dsimp only [dat3]
theorem after3_5 (c : Dev nD) (t : Fin cfg3.N) : (dat3 V c).after 5 t = (outsAt3 V c t.val t.isLt).2.1 := by dsimp only [dat3]
theorem after3_6 (c : Dev nD) (t : Fin cfg3.N) : (dat3 V c).after 6 t = (outsAt3 V c t.val t.isLt).2.2 := by dsimp only [dat3]

theorem before3 (c : Dev nD) : ∀ w : Fin cfg3.W, (cfg3.win w).isOut = false → ∀ t d, (dat3 V c).before w t d = (dat3 V c).after w t
  | ⟨0, _⟩, h, t, d | ⟨1, _⟩, h, t, d | ⟨2, _⟩, h, t, d | ⟨3, _⟩, h, t, d =>
    ((dat3 V c).before_in_eq_fetched _ h (fun _ => rfl) (fun _ _ _ => rfl) (fun _ => rfl) t d).trans rfl
  | ⟨4, _⟩, h, _, _ | ⟨5, _⟩, h, _, _ | ⟨6, _⟩, h, _, _ => Bool.noConfusion h

theorem acc3 (c : Dev nD) (t : Fin cfg3.N) (h0 : ¬t.val % 50 = 0) (w : Fin cfg3.W) (hw : (cfg3.win w).isOut = true)
    (hfl : ∀ s : Fin cfg3.N, (cfg3.win w).flush s = true ↔ s.val % 50 = 49) (hclip : ∀ i a, (cfg3.win w).clip i a = none) (d) :
    (dat3 V c).before w t d = (dat3 V c).after w ⟨t.val - 1, Nat.lt_of_le_of_lt (Nat.sub_le _ _) t.isLt⟩ := by
  have hN : t.val < 50 := lt_of_lt_of_eq t.isLt (show cfg3.N = 50 from N_3)
  exact Dat.before_out_kept _ w hw t (by omega) (Bool.eq_false_iff.mpr fun h => by have := (hfl _).mp h; dsimp only at this; omega) (fun _ => rfl) hclip _

set_option maxHeartbeats 1600000 in
theorem body_obligation3 (c : Dev nD) : BodyObligation (dat3 (F := F) V c) (defs₀ (F := F)) Variants.none () Set.univ := fun t => by
  show iprop(_ ∗ _ ∗ bigSep _ fun w => iprop(∃ d, owns _ _ _ _)) ⊢ wp _ _ _ (bodyAt3 t) fun _ => iprop((dat3 V c).Φ t.castSucc ∗ (dat3 V c).owesAt () t.castSucc ∗ bigSep _ fun w => owns _ _ _ _)
  rw [bigSep_W3, bigSep_W3]
  simp only [before3 V c 0 rfl, before3 V c 1 rfl, before3 V c 2 rfl, before3 V c 3 rfl]
  by_cases h0 : t.val % 50 = 0
  · dsimp only [dat3]
    rw [outsAt3_A V c t h0]
    dsimp only
    unfold out3_A_4 out3_A_5 out3_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun3_A c (grid3.coords t) _ _ _ _ _ _ _ _ _ _ _ _ _ _ ((hcond3_0 t).mpr h0) _ _ _ _).2.2.2.2 Set.univ _)
    iframe H0 H1 H2 H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    iframe HΦ Ho H0 H1 H2 H3
    isplitl [H4]
    · unfold owns; iexists _; isplitr
      swap; · iexact H4
      ipureintro; exact View.read_writes_eq_canon _ _ _ (kernelRun3_A c ..).2.1
    isplitl [H5]
    · unfold owns; iexists _; isplitr
      swap; · iexact H5
      ipureintro; exact View.read_writes_eq_canon _ _ _ (kernelRun3_A c ..).2.2.1
    unfold owns; iexists _; isplitr
    swap; · iexact H6
    ipureintro; exact View.read_writes_eq_canon _ _ _ (kernelRun3_A c ..).2.2.2.1
  · simp only [acc3 V c t h0 4 rfl flush3_4 (fun _ _ => rfl), acc3 V c t h0 5 rfl flush3_5 (fun _ _ => rfl), acc3 V c t h0 6 rfl flush3_6 (fun _ _ => rfl)]
    dsimp only [dat3]
    rw [outsAt3_B V c t h0]
    dsimp only
    unfold out3_B_4 out3_B_5 out3_B_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun3_B c (grid3.coords t) _ _ _ _ _ _ _ _ _ _ _ _ _ _ (fun h => h0 ((hcond3_0 t).mp h)) _ _ _ _ _ _ _).2.2.2.2 Set.univ _)
    iframe H0 H1 H2 H3 H4 H5 H6
    iintro ⟨H0, H1, H2, H3, ⟨%e4, H4⟩, ⟨%e5, H5⟩, ⟨%e6, H6⟩⟩
    iframe HΦ Ho H0 H1 H2 H3
    isplitl [H4]
    · unfold owns; iexists _; isplitr
      swap; · iexact H4
      ipureintro; exact View.read_writes_eq_canon _ _ _ (kernelRun3_B c ..).2.1
    isplitl [H5]
    · unfold owns; iexists _; isplitr
      swap; · iexact H5
      ipureintro; exact View.read_writes_eq_canon _ _ _ (kernelRun3_B c ..).2.2.1
    unfold owns; iexists _; isplitr
    swap; · iexact H6
    ipureintro; exact View.read_writes_eq_canon _ _ _ (kernelRun3_B c ..).2.2.2.1

end Cert.Kernel.Hand

end
-- ==== Proof.Kernel.R4.lean ====
import proofs.«429475_j15058155340592_1_alg».proof.Proof.KernelLaunch
import proofs.«429475_j15058155340592_1_alg».proof.Proof.Gen.Kernel.Skeleton
import proofs.«429475_j15058155340592_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S1024x384 := Rect.unit (s := S1024x384) ![0, 0] S1024x384.size inb_S1024x384_S1024x384_0_0
abbrev r4_1 : Rect S384x256 := Rect.unit (s := S384x256) ![0, 0] S384x256.size inb_S384x256_S384x256_0_0
abbrev r4_2 : Rect S1x256 := Rect.unit (s := S1x256) ![0, 0] S1x256.size inb_S1x256_S1x256_0_0
abbrev r4_3 : Rect S256x2 := Rect.unit (s := S256x2) ![0, 0] S256x2.size inb_S256x2_S256x2_0_0
abbrev r4_4 : Rect S1x2 := Rect.unit (s := S1x2) ![0, 0] S1x2.size inb_S1x2_S1x2_0_0
abbrev r4_5 : Rect S1024x2 := Rect.unit (s := S1024x2) ![0, 0] S1024x2.size inb_S1024x2_S1024x2_0_0

def out4_9 (x0 : Vec F S1024x384 .f32) (x1 : Vec F S384x256 .f32) (x2 : Vec F S1x256 .f32) (x3 : Vec F S1x256 .f32) (x4 : Vec F S1x256 .f32) (x5 : Vec F S1x256 .f32) (x6 : Vec F S1x256 .f32) (x7 : Vec F S256x2 .f32) (x8 : Vec F S1x2 .f32) : Vec F S1024x2 .f32 :=
  View.canon [⟨r4_5, k4_pay1 (k4_pay2 (View.ld x0 r4_0) (View.ld x1 r4_1) (View.ld x2 r4_2) (View.ld x6 r4_2) (View.ld x5 r4_2) (View.ld x3 r4_2) (View.ld x4 r4_2) (View.ld x7 r4_3)) (k4_pay3 (View.ld x8 r4_4))⟩]

set_option maxHeartbeats 4000000 in
theorem sound_kernel4 (c : Dev nD) (E : Set ℕ) (i : grid4.Coords) (arg1 : Memref sig .tc .vmem S1024x384 .f32) (harg1 : arg1.IsWhole) (arg2 : Memref sig .tc .vmem S384x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x2 .f32) (harg8 : arg8.IsWhole) (arg9 : Memref sig .tc .vmem S1x2 .f32) (harg9 : arg9.IsWhole) (arg10 : Memref sig .tc .vmem S1024x2 .f32) (harg10 : arg10.IsWhole)
    (x0 : Vec F S1024x384 .f32) (x1 : Vec F S384x256 .f32) (x2 : Vec F S1x256 .f32) (x3 : Vec F S1x256 .f32) (x4 : Vec F S1x256 .f32) (x5 : Vec F S1x256 .f32) (x6 : Vec F S1x256 .f32) (x7 : Vec F S256x2 .f32) (x8 : Vec F S1x2 .f32) (K : PUnit → sProp 𝕄) :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7 ∗ owns c.tc arg9 fullShare x8 ∗ (∃ d, owns c.tc arg10 fullShare d)
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7 ∗ owns c.tc arg9 fullShare x8 ∗ owns c.tc arg10 fullShare (out4_9 x0 x1 x2 x3 x4 x5 x6 x7 x8)) -∗ K ⟨⟩))
      ⊢ wp frame (wpE (defs₀ (F := F)) Variants.none c none) E (cc4__clf_kernel i arg1 harg1 arg2 harg2 arg3 harg3 arg4 harg4 arg5 harg5 arg6 harg6 arg7 harg7 arg8 harg8 arg9 harg9 arg10 harg10) K := by
  simp only [cc4__clf_kernel_eq_skeleton]; unfold cc4__clf_kernel_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (View.cover_of_tiled _ S1024x2.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t) (iblk4 V c 5 t) (iblk4 V c 6 t) (iblk4 V c 7 t) (iblk4 V c 8 t)
  Φ _ := Pipeline.ΦA spec4 c
  q _ := fullShare
  owed _ := 0

theorem A_eq4 (c : Dev nD) (w : Fin cfg4.W) : (dat4 V c).A w = V c (Pipeline.arrRef spec4 w) := rfl

theorem after4_9 (c : Dev nD) (t : Fin cfg4.N) : (dat4 V c).after 9 t = out4_9 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]

theorem before4 (c : Dev nD) : ∀ w : Fin cfg4.W, (cfg4.win w).isOut = false → ∀ t d, (dat4 V c).before w t d = (dat4 V c).after w t
  | ⟨9, _⟩, h, _, _ => Bool.noConfusion h
  | ⟨0, _⟩, h, t, d | ⟨1, _⟩, h, t, d | ⟨2, _⟩, h, t, d | ⟨3, _⟩, h, t, d | ⟨4, _⟩, h, t, d | ⟨5, _⟩, h, t, d | ⟨6, _⟩, h, t, d | ⟨7, _⟩, h, t, d | ⟨8, _⟩, h, t, d =>
    ((dat4 V c).before_in_eq_fetched _ h (fun _ => rfl) (fun _ _ _ => rfl) (fun _ => rfl) t d).trans rfl

theorem body_obligation4 (c : Dev nD) : BodyObligation (dat4 (F := F) V c) (defs₀ (F := F)) Variants.none () Set.univ := fun t => by
  show iprop(_ ∗ _ ∗ bigSep _ fun w => iprop(∃ d, owns _ _ _ _)) ⊢ wp _ _ _ (bodyAt4 t) fun _ => iprop((dat4 V c).Φ t.castSucc ∗ (dat4 V c).owesAt () t.castSucc ∗ bigSep _ fun w => owns _ _ _ _)
  rw [bigSep_W4, bigSep_W4]
  simp only [before4 V c 0 rfl, before4 V c 1 rfl, before4 V c 2 rfl, before4 V c 3 rfl, before4 V c 4 rfl, before4 V c 5 rfl, before4 V c 6 rfl, before4 V c 7 rfl, before4 V c 8 rfl]
  dsimp only [dat4]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel4 c Set.univ _ _ _ _ _ _ _ _ _ _ _ _ _ _ _ _ _ _ _ _ _ _ _ _ _ _ _ _ _ _ _)
  iframe H0 H1 H2 H3 H4 H5 H6 H7 H8
  isplitl [H9]; · iexists _; iexact H9
  iintro ⟨H0, H1, H2, H3, H4, H5, H6, H7, H8, H9⟩
  iframe

end Cert.Kernel.Hand

end
-- ==== Proof.Kernel.Frame.lean ====
import proofs.«429475_j15058155340592_1_alg».proof.Proof.KernelRegions
import proofs.«429475_j15058155340592_1_alg».proof.Proof.Kernel.R0
import proofs.«429475_j15058155340592_1_alg».proof.Proof.Kernel.R1
import proofs.«429475_j15058155340592_1_alg».proof.Proof.Kernel.R2
import proofs.«429475_j15058155340592_1_alg».proof.Proof.Kernel.R3
import proofs.«429475_j15058155340592_1_alg».proof.Proof.Kernel.R4

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def outsS0 : GenP.Outs (F := F) := fun _ r c => m ((c : Thread nD τ).loc r)

def o2 (c : Dev nD) : Buf (Elt F) ((c : Thread nD τ).loc main_v16) :=
  (dat0 (fun c b => GenP.V1 m c b) c).arrAt 6 cfg0.N
def outsS1 : GenP.Outs (F := F) := fun J => Function.update (outsS0 m J) main_v16 (fun c => o2 m c)

def o4 (c : Dev nD) : Buf (Elt F) ((c : Thread nD τ).loc main_v29) :=
  (dat1 (fun c b => GenP.V3 m (outsS1 m) c b) c).arrAt 6 cfg1.N
def outsS2 : GenP.Outs (F := F) := fun J => Function.update (outsS1 m J) main_v29 (fun c => o4 m c)

def o6 (c : Dev nD) : Buf (Elt F) ((c : Thread nD τ).loc main_v42) :=
  (dat2 (fun c b => GenP.V5 m (outsS2 m) c b) c).arrAt 6 cfg2.N
def outsS3 : GenP.Outs (F := F) := fun J => Function.update (outsS2 m J) main_v42 (fun c => o6 m c)

def o8_0 (c : Dev nD) : Buf (Elt F) ((c : Thread nD τ).loc main_v44_0) :=
  (dat3 (fun c b => GenP.V7 m (outsS3 m) c b) c).arrAt 4 cfg3.N
def o8_1 (c : Dev nD) : Buf (Elt F) ((c : Thread nD τ).loc main_v44_1) :=
  (dat3 (fun c b => GenP.V7 m (outsS3 m) c b) c).arrAt 5 cfg3.N
def o8_2 (c : Dev nD) : Buf (Elt F) ((c : Thread nD τ).loc main_v44_2) :=
  (dat3 (fun c b => GenP.V7 m (outsS3 m) c b) c).arrAt 6 cfg3.N
def outsS4 : GenP.Outs (F := F) := fun J =>
  Function.update (Function.update (Function.update (outsS3 m J) main_v44_0 (fun c => o8_0 m c)) main_v44_1 (fun c => o8_1 m c)) main_v44_2 (fun c => o8_2 m c)

def o10 (c : Dev nD) : Buf (Elt F) ((c : Thread nD τ).loc main_v52) :=
  (dat4 (fun c b => GenP.V9 m (outsS4 m) c b) c).arrAt 9 cfg4.N
def outs : GenP.Outs (F := F) := fun J => Function.update (outsS4 m J) main_v52 (fun c => o10 m c)
theorem Vin1_eq : (fun (c : Dev nD) (b : Ref sig .tc) => GenP.V3 m (outs m) c b) = fun (c : Dev nD) (b : Ref sig .tc) => GenP.V3 m (outsS1 m) c b := by
  funext c b; simp (disch := decide) only [GenP.V3, GenP.V2, outs, outsS4, outsS3, outsS2, Function.update_of_ne]
theorem Vin2_eq : (fun (c : Dev nD) (b : Ref sig .tc) => GenP.V5 m (outs m) c b) = fun (c : Dev nD) (b : Ref sig .tc) => GenP.V5 m (outsS2 m) c b := by
  funext c b; simp (disch := decide) only [GenP.V5, GenP.V4, GenP.V3, GenP.V2, outs, outsS4, outsS3, Function.update_of_ne]
theorem Vin3_eq : (fun (c : Dev nD) (b : Ref sig .tc) => GenP.V7 m (outs m) c b) = fun (c : Dev nD) (b : Ref sig .tc) => GenP.V7 m (outsS3 m) c b := by
  funext c b; simp (disch := decide) only [GenP.V7, GenP.V6, GenP.V5, GenP.V4, GenP.V3, GenP.V2, outs, outsS4, Function.update_of_ne]
theorem Vin4_eq : (fun (c : Dev nD) (b : Ref sig .tc) => GenP.V9 m (outs m) c b) = fun (c : Dev nD) (b : Ref sig .tc) => GenP.V9 m (outsS4 m) c b := by
  funext c b; simp (disch := decide) only [GenP.V9, GenP.V8, GenP.V7, GenP.V6, GenP.V5, GenP.V4, GenP.V3, GenP.V2, outs, Function.update_of_ne]

theorem outs_2 (c : Dev nD) : outs m 2 main_v16 c = (dat0 (fun c b => GenP.V1 m c b) c).arrAt 6 cfg0.N := by
  simp (disch := decide) only [outs, outsS4, outsS3, outsS2, outsS1, o2, Function.update_of_ne, Function.update_self]
theorem outs_4 (c : Dev nD) : outs m 4 main_v29 c = (dat1 (fun c b => GenP.V3 m (outs m) c b) c).arrAt 6 cfg1.N := by
  rw [Vin1_eq m]; simp (disch := decide) only [outs, outsS4, outsS3, outsS2, o4, Function.update_of_ne, Function.update_self]
theorem outs_6 (c : Dev nD) : outs m 6 main_v42 c = (dat2 (fun c b => GenP.V5 m (outs m) c b) c).arrAt 6 cfg2.N := by
  rw [Vin2_eq m]; simp (disch := decide) only [outs, outsS4, outsS3, o6, Function.update_of_ne, Function.update_self]
theorem outs_8_0 (c : Dev nD) : outs m 8 main_v44_0 c = (dat3 (fun c b => GenP.V7 m (outs m) c b) c).arrAt 4 cfg3.N := by
  rw [Vin3_eq m]; simp (disch := decide) only [outs, outsS4, o8_0, Function.update_of_ne, Function.update_self]
theorem outs_8_1 (c : Dev nD) : outs m 8 main_v44_1 c = (dat3 (fun c b => GenP.V7 m (outs m) c b) c).arrAt 5 cfg3.N := by
  rw [Vin3_eq m]; simp (disch := decide) only [outs, outsS4, o8_1, Function.update_of_ne, Function.update_self]
theorem outs_8_2 (c : Dev nD) : outs m 8 main_v44_2 c = (dat3 (fun c b => GenP.V7 m (outs m) c b) c).arrAt 6 cfg3.N := by
  rw [Vin3_eq m]; simp (disch := decide) only [outs, outsS4, o8_2, Function.update_of_ne, Function.update_self]
theorem outs_10 (c : Dev nD) : outs m 10 main_v52 c = (dat4 (fun c b => GenP.V9 m (outs m) c b) c).arrAt 9 cfg4.N := by
  rw [Vin4_eq m]; simp (disch := decide) only [outs, o10, Function.update_self]

def pdats : (p : Fin 5) → (c : Dev nD) → Dat τ (Elt F) Unit ℕ (UR sig nD τ) ℕ (cfgs p) c
  | ⟨0, _⟩ => fun c => dat0 (fun c b => GenP.V1 m c b) c
  | ⟨1, _⟩ => fun c => dat1 (fun c b => GenP.V3 m (outs m) c b) c
  | ⟨2, _⟩ => fun c => dat2 (fun c b => GenP.V5 m (outs m) c b) c
  | ⟨3, _⟩ => fun c => dat3 (fun c b => GenP.V7 m (outs m) c b) c
  | ⟨4, _⟩ => fun c => dat4 (fun c b => GenP.V9 m (outs m) c b) c

abbrev Lz : GSem nD τ sig → Finset Unit := fun _ => ∅
abbrev lvz : GSem nD τ sig → Unit → ℕ := fun _ _ => 0
abbrev Rst (c : Dev nD) : sProp 𝕄 := iprop((∃ r, prngReg c r) ∗ ∃ W, owes (c : Thread nD τ) (0 : CellTallies nD τ sig Unit) W)
abbrev Est : Fin 6 → Dev nD → sProp 𝕄 := fun _ c => Rst c

section Reg
variable (p : Fin 5) (L : Pipeline.LaunchFacts (nD := nD) (τ := τ) cfgs p) (Vi Vo : (c : Dev nD) → Valuation τ sig (Elt F))
  (hΦ : ∀ c i, (pdats m p c).Φ i = Pipeline.ΦA (cfgs p).spec c) (hq : ∀ c w, (pdats m p c).q w = fullShare)
  (hA : ∀ c w, (pdats m p c).A w = Vi c (Pipeline.arrRef (cfgs p).spec w)) (ho : ∀ c t, (pdats m p c).owed t = 0)
  (hrec : ∀ c t, (pdats m p c).recorded t = Set.univ)
  (hb : ∀ c, BodyObligation (pdats m p c) (defs₀ (F := F)) Variants.none () Set.univ)
  (hF : ∀ c w, (pdats m p c).arrAt w (cfgs p).N = Vo c (Pipeline.arrRef (cfgs p).spec w))
  (hr : ∀ c b, b ∉ Finset.univ.image (Pipeline.arrRef (cfgs p).spec) → Vo c b = Vi c b)

set_option backward.isDefEq.respectTransparency.types false in
/-- The five regions differ only in their number and the two valuations around them: one record serves all. -/
def mkReg : Pipeline.RegionSeg (pcfgs (F := F)) GenP.adm (pdats m) () defs₀ Variants.none Lz lvz p where
  win := L.win.to₀
  block_pos := L.block_pos
  stage_whole := L.stage_whole
  K := PEmpty
  osem k := k.elim
  ho := Pipeline.OwnSemFacts.none _
  hbody c := (hb c).loose
  hwaits := Pipeline.hwaits_of_owed_zero _ _ _ _ Lz lvz p ho
  pre c := iprop(StableHlo.held (c : Thread nD τ) (Pipeline.ucRefs τ sig) (Vi c) ∗ Rst c)
  post c := iprop(StableHlo.held (c : Thread nD τ) (Pipeline.ucRefs τ sig) (Vo c) ∗ Rst c)
  X c := iprop(∃ r, prngReg c r)
  Y c := iprop(∃ r, prngReg c r)
  Z c := Pipeline.unscopedRest (Ix := Unit) (Name := ℕ) (U := UR sig nD τ) (Lvl := ℕ) (cfgs p).spec c (fun b => Vi c b)
  hentry c := by
    rw [Pipeline.ownSems0_none]
    have hsplit := Pipeline.arrays_of_unscopedBufs (p := p) (pcfgs (F := F)) GenP.adm (pdats m) L.win L.arr_whole c
      ((pdats m p c).share_full (hq c)) (fun b => Vi c b) (hA c)
    rw [Pipeline.unscopedBufs_held (Ix := Unit) (Name := ℕ) (U := UR sig nD τ) (Lvl := ℕ) c (Vi c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [ho, hrec]
      icases HO with ⟨%W, HO⟩; iexists W; isplitr; · ipureintro; exact fun _ _ => Or.inl trivial
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) GenP.adm (Ix := Unit) (Name := ℕ) (U := UR sig nD τ) (Lvl := ℕ)
      L.win L.arr_whole c (pdats m) ((pdats m p c).share_full (hq c))
      (fun b => Vi c b) (fun b => Vo c b) ((pdats m p c).arrAt · (cfgs p).N) (hF c) (hr c)
    rw [Pipeline.unscopedBufs_held (Ix := Unit) (Name := ℕ) (U := UR sig nD τ) (Lvl := ℕ) c (Vo c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [ho]
    icases HO with ⟨%W, -, HO⟩; iexists W; iexact HO

variable (o : Fin (cfgs p).W) (hin : ∀ w, w ≠ o → ((cfgs p).win w).isOut = false)
  (hof : ∀ c b, b ∉ ([Pipeline.arrRef (cfgs p).spec o] : List (Ref sig .tc)) → Vo c b = Vi c b)
  (hat : ∀ c, Vo c (Pipeline.arrRef (cfgs p).spec o) = (pdats m p c).arrAt o (cfgs p).N)

set_option backward.isDefEq.respectTransparency.types false in
/-- A region with one output array: every other array of it ends as it was entered. -/
def mkReg1 := mkReg m p L Vi Vo hΦ hq hA ho hrec hb
  (fun c w => by
    by_cases h : w = o
    · subst h; exact (hat c).symm
    exact (((pdats m p c).arrAt_in w (hin w h) _).trans (hA c w)).trans
      (hof c _ fun hm => h (L.win.arr_inj (List.mem_singleton.mp hm))).symm)
  (fun c b hb' => hof c b fun h => hb' (Finset.mem_image.mpr ⟨o, Finset.mem_univ _, (List.mem_singleton.mp h).symm⟩))

end Reg

theorem V8_at_main_v44_0 (c : Dev nD) : GenP.V8 m (outs m) c main_v44_0 = outs m 8 main_v44_0 c := by
  unfold GenP.V8; rw [Function.update_of_ne (StableHlo.devRef_ne_of_ne (by decide : (main_v44_0 : Ref sig .tc) ≠ main_v44_2)), Function.update_of_ne (StableHlo.devRef_ne_of_ne (by decide : (main_v44_0 : Ref sig .tc) ≠ main_v44_1)), Function.update_self]
theorem V8_at_main_v44_1 (c : Dev nD) : GenP.V8 m (outs m) c main_v44_1 = outs m 8 main_v44_1 c := by
  unfold GenP.V8; rw [Function.update_of_ne (StableHlo.devRef_ne_of_ne (by decide : (main_v44_1 : Ref sig .tc) ≠ main_v44_2)), Function.update_self]
theorem V8_at_main_v44_2 (c : Dev nD) : GenP.V8 m (outs m) c main_v44_2 = outs m 8 main_v44_2 c := by
  unfold GenP.V8; rw [Function.update_self]
theorem isIn3 : ∀ w : Fin cfg3.W, w ≠ 4 → w ≠ 5 → w ≠ 6 → (cfg3.win w).isOut = false := by decide
theorem hF3 (c : Dev nD) (w : Fin cfg3.W) : (dat3 (fun c b => GenP.V7 m (outs m) c b) c).arrAt w cfg3.N = GenP.V8 m (outs m) c (Pipeline.arrRef spec3 w) := by
  by_cases h4 : w = 4
  · subst h4; exact (outs_8_0 m c).symm.trans (V8_at_main_v44_0 m c).symm
  by_cases h5 : w = 5
  · subst h5; exact (outs_8_1 m c).symm.trans (V8_at_main_v44_1 m c).symm
  by_cases h6 : w = 6
  · subst h6; exact (outs_8_2 m c).symm.trans (V8_at_main_v44_2 m c).symm
  have hne : Pipeline.arrRef spec3 w ∉ ([main_v44_0, main_v44_1, main_v44_2] : List (Ref sig .tc)) := fun hm => by
    simp only [List.mem_cons, List.not_mem_nil, or_false] at hm
    rcases hm with hm | hm | hm
    · exact h4 (winFacts3.arr_inj (hm.trans (rfl : main_v44_0 = Pipeline.arrRef spec3 4)))
    · exact h5 (winFacts3.arr_inj (hm.trans (rfl : main_v44_1 = Pipeline.arrRef spec3 5)))
    · exact h6 (winFacts3.arr_inj (hm.trans (rfl : main_v44_2 = Pipeline.arrRef spec3 6)))
  exact ((dat3 (fun c b => GenP.V7 m (outs m) c b) c).arrAt_in w (isIn3 w h4 h5 h6) _).trans ((A_eq3 (fun c b => GenP.V7 m (outs m) c b) c w).trans (GenP.V8_of m (outs m) c _ hne).symm)
theorem hrest3 (c : Dev nD) : ∀ b, b ∉ Finset.univ.image (Pipeline.arrRef spec3) → GenP.V8 m (outs m) c b = GenP.V7 m (outs m) c b :=
  fun b hb => GenP.V8_of m (outs m) c b fun h => by
    simp only [List.mem_cons, List.not_mem_nil, or_false] at h
    rcases h with h | h | h
    · subst h; exact hb (Finset.mem_image.mpr ⟨4, Finset.mem_univ _, rfl⟩)
    · subst h; exact hb (Finset.mem_image.mpr ⟨5, Finset.mem_univ _, rfl⟩)
    · subst h; exact hb (Finset.mem_image.mpr ⟨6, Finset.mem_univ _, rfl⟩)

set_option backward.isDefEq.respectTransparency.types false in
def reg0 := mkReg1 m 0 launch0 (GenP.V1 m) (GenP.V2 m (outs m)) (fun _ _ => rfl) (fun _ _ => rfl) (fun _ _ => rfl) (fun _ _ => rfl) (fun _ _ => rfl) (body_obligation0 fun c b => GenP.V1 m c b) 6 (by decide) (GenP.V2_of m (outs m)) fun c => (Function.update_self _ _ _).trans (outs_2 m c)
set_option backward.isDefEq.respectTransparency.types false in
def reg1 := mkReg1 m 1 launch1 (GenP.V3 m (outs m)) (GenP.V4 m (outs m)) (fun _ _ => rfl) (fun _ _ => rfl) (fun _ _ => rfl) (fun _ _ => rfl) (fun _ _ => rfl) (body_obligation1 fun c b => GenP.V3 m (outs m) c b) 6 (by decide) (GenP.V4_of m (outs m)) fun c => (Function.update_self _ _ _).trans (outs_4 m c)
set_option backward.isDefEq.respectTransparency.types false in
def reg2 := mkReg1 m 2 launch2 (GenP.V5 m (outs m)) (GenP.V6 m (outs m)) (fun _ _ => rfl) (fun _ _ => rfl) (fun _ _ => rfl) (fun _ _ => rfl) (fun _ _ => rfl) (body_obligation2 fun c b => GenP.V5 m (outs m) c b) 6 (by decide) (GenP.V6_of m (outs m)) fun c => (Function.update_self _ _ _).trans (outs_6 m c)
set_option backward.isDefEq.respectTransparency.types false in
def reg3 := mkReg m 3 launch3 (GenP.V7 m (outs m)) (GenP.V8 m (outs m)) (fun _ _ => rfl) (fun _ _ => rfl) (fun _ _ => rfl) (fun _ _ => rfl) (fun _ _ => rfl) (body_obligation3 fun c b => GenP.V7 m (outs m) c b) (hF3 m) (hrest3 m)
set_option backward.isDefEq.respectTransparency.types false in
def reg4 := mkReg1 m 4 launch4 (GenP.V9 m (outs m)) (GenP.V10 m (outs m)) (fun _ _ => rfl) (fun _ _ => rfl) (fun _ _ => rfl) (fun _ _ => rfl) (fun _ _ => rfl) (body_obligation4 fun c b => GenP.V9 m (outs m) c b) 9 (by decide) (GenP.V10_of m (outs m)) fun c => (Function.update_self _ _ _).trans (outs_10 m c)

variable (ρ : Dev nD → PrngReg)

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE5 (c : Dev nD) : Est (F := F) 5 c ⊢ (iprop(∃ W, owes (c : Thread nD τ) (0 : CellTallies nD τ sig Unit) W) : sProp 𝕄) := by
  iintro ⟨-, HO⟩; iexact HO

/-- Every argument ends as launched. -/
abbrev kept (c : Dev nD) (μ : (ℓ : Loc nD τ sig) → Buf (Elt F) ℓ) : Prop :=
  μ ((c.tc : Thread nD τ).loc main_arg0) = m ((c.tc : Thread nD τ).loc main_arg0)
  ∧ μ ((c.tc : Thread nD τ).loc main_arg1) = m ((c.tc : Thread nD τ).loc main_arg1)
  ∧ μ ((c.tc : Thread nD τ).loc main_arg2) = m ((c.tc : Thread nD τ).loc main_arg2)
  ∧ μ ((c.tc : Thread nD τ).loc main_arg3) = m ((c.tc : Thread nD τ).loc main_arg3)
  ∧ μ ((c.tc : Thread nD τ).loc main_arg4) = m ((c.tc : Thread nD τ).loc main_arg4)
  ∧ μ ((c.tc : Thread nD τ).loc main_arg5) = m ((c.tc : Thread nD τ).loc main_arg5)
  ∧ μ ((c.tc : Thread nD τ).loc main_arg6) = m ((c.tc : Thread nD τ).loc main_arg6)
  ∧ μ ((c.tc : Thread nD τ).loc main_arg7) = m ((c.tc : Thread nD τ).loc main_arg7)
  ∧ μ ((c.tc : Thread nD τ).loc main_arg8) = m ((c.tc : Thread nD τ).loc main_arg8)
  ∧ μ ((c.tc : Thread nD τ).loc main_arg9) = m ((c.tc : Thread nD τ).loc main_arg9)
  ∧ μ ((c.tc : Thread nD τ).loc main_arg10) = m ((c.tc : Thread nD τ).loc main_arg10)
  ∧ μ ((c.tc : Thread nD τ).loc main_arg11) = m ((c.tc : Thread nD τ).loc main_arg11)
  ∧ μ ((c.tc : Thread nD τ).loc main_arg12) = m ((c.tc : Thread nD τ).loc main_arg12)
  ∧ μ ((c.tc : Thread nD τ).loc main_arg13) = m ((c.tc : Thread nD τ).loc main_arg13)
  ∧ μ ((c.tc : Thread nD τ).loc main_arg14) = m ((c.tc : Thread nD τ).loc main_arg14)
  ∧ μ ((c.tc : Thread nD τ).loc main_arg15) = m ((c.tc : Thread nD τ).loc main_arg15)
  ∧ μ ((c.tc : Thread nD τ).loc main_arg16) = m ((c.tc : Thread nD τ).loc main_arg16)
  ∧ μ ((c.tc : Thread nD τ).loc main_arg17) = m ((c.tc : Thread nD τ).loc main_arg17)
  ∧ μ ((c.tc : Thread nD τ).loc main_arg18) = m ((c.tc : Thread nD τ).loc main_arg18)
  ∧ μ ((c.tc : Thread nD τ).loc main_arg19) = m ((c.tc : Thread nD τ).loc main_arg19)
  ∧ μ ((c.tc : Thread nD τ).loc main_arg20) = m ((c.tc : Thread nD τ).loc main_arg20)
  ∧ μ ((c.tc : Thread nD τ).loc main_arg21) = m ((c.tc : Thread nD τ).loc main_arg21)
  ∧ μ ((c.tc : Thread nD τ).loc main_arg22) = m ((c.tc : Thread nD τ).loc main_arg22)

set_option backward.isDefEq.respectTransparency.types false in
/-- Every weakly fair execution ends with the result buffer at what the last region leaves and every argument as launched. -/
theorem run_val : θ_run defs (onTc (τ := τ) (main (F := F))) ⟨m, fun _ => 0, ρ⟩ (fun r => ∀ c : Dev nD,
      r.2.mem ((c.tc : Thread nD τ).loc main_v52) = GenP.V10 m (outs m) c main_v52 ∧ kept m c fun ℓ => r.2.mem ℓ) := by
  refine Pipeline.θ_run_regions_kit_dev (pcfgs (F := F)) GenP.adm (pdats m) () cellOf_inj emb₁ defs₀ Variants.none Lz lvz m ρ main
    (GenP.segs m (outs m) Variants.none Lz lvz Est () (pdats m) (reg0 m) (reg1 m) (reg2 m) (reg3 m) (reg4 m))
    (fun c Q => by
      rewrite [main_chain c, Pipeline.Seg.run_eq_chain,
        show (GenP.segs m (outs m) Variants.none Lz lvz Est () (pdats m) (reg0 m) (reg1 m) (reg2 m) (reg3 m) (reg4 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (fun c => by simp only [GenP.segs, Pipeline.Seg.pipes_host, Pipeline.Seg.pipes_region, Pipeline.Seg.pipes_nil]; decide)
    0 (fun _ _ => rfl) (fun _ => iprop(emp)) (initOf (Pipeline.cells cfgs cellOf_inj) (Pipeline.launchToks cfgs cellOf_inj)) hu₀
    (T₀ := fun c => iprop(StableHlo.held (c : Thread nD τ) (Pipeline.ucRefs τ sig) (GenP.V0 m c) ∗ Est 0 c))
    (Tₙ := fun c => StableHlo.held (c : Thread nD τ) (Pipeline.ucRefs τ sig) (GenP.V10 m (outs m) c))
    (hch := fun c => ⟨.rfl, .rfl, .rfl, .rfl, .rfl, .rfl, .rfl, .rfl, .rfl, .rfl, sep_mono .rfl (hE5 c)⟩)
    (hinit := ?_)
    (QY := fun c s => s.mem ((c.tc : Thread nD τ).loc main_v52) = GenP.V10 m (outs m) c main_v52 ∧ kept m c fun ℓ => s.mem ℓ)
    (hfin := fun c s' => ?_) (hQ := fun _ h => h)
  · -- the launch: the unscoped buffers are held at the launch contents; the generator register and the `owes` make the rest
    refine Pipeline.initEach Lz lvz fun c => ?_
    rw [show unscopedBufs c (fun b => m ((c : Thread nD τ).loc b)) = StableHlo.held (c : Thread nD τ) (Pipeline.ucRefs τ sig) (GenP.V0 m c)
      from Pipeline.unscopedBufs_held c (GenP.V0 m c)]
    iintro ⟨⟨Hh, -, HO, -, Hp, -⟩, -⟩
    imodintro
    isplitl [Hh]; · iexact Hh
    isplitl [Hp]; · iexists _; iexact Hp
    iexists ∅; iexact HO
  · -- the end: the result buffer and each argument's buffer read off the last valuation
    unfold StableHlo.held
    iintro ⟨Hh, HSI⟩
    ihave Hr := (pointsTo_read_all (Pipeline.ucRefs τ sig) (fun b => ((c : Thread nD τ).1, b)) (GenP.V10 m (outs m) c) s') $$ [Hh HSI]
    · isplitl [Hh] <;> iassumption
    icases Hr with ⟨%h, HSI⟩
    imodintro
    isplitr
    · ipureintro
      have hk := fun (b : Ref sig .tc) hb => h (Proc.devRef .tc b) (Finset.mem_filter.mpr ⟨StableHlo.devRef_mem_tcRefs b, hb⟩)
      have ha := fun (b : Ref sig .tc) hb hw => (hk b hb).trans (GenP.V10_kept m (outs m) c b hw)
      exact ⟨hk main_v52 (by decide),
        ha main_arg0 (by decide) (by decide),
        ha main_arg1 (by decide) (by decide),
        ha main_arg2 (by decide) (by decide),
        ha main_arg3 (by decide) (by decide),
        ha main_arg4 (by decide) (by decide),
        ha main_arg5 (by decide) (by decide),
        ha main_arg6 (by decide) (by decide),
        ha main_arg7 (by decide) (by decide),
        ha main_arg8 (by decide) (by decide),
        ha main_arg9 (by decide) (by decide),
        ha main_arg10 (by decide) (by decide),
        ha main_arg11 (by decide) (by decide),
        ha main_arg12 (by decide) (by decide),
        ha main_arg13 (by decide) (by decide),
        ha main_arg14 (by decide) (by decide),
        ha main_arg15 (by decide) (by decide),
        ha main_arg16 (by decide) (by decide),
        ha main_arg17 (by decide) (by decide),
        ha main_arg18 (by decide) (by decide),
        ha main_arg19 (by decide) (by decide),
        ha main_arg20 (by decide) (by decide),
        ha main_arg21 (by decide) (by decide),
        ha main_arg22 (by decide) (by decide)⟩
    · iexact HSI

end Cert.Kernel.Hand

end
-- ==== Proof.KernelIdealRegions.lean ====
import proofs.«429475_j15058155340592_1_alg».proof.Proof.KernelIdealLaunch
import Idealize.ShloMosaic.Lib.Pipeline.Frame
import Idealize.ShloMosaic.Lib.Pipeline.Regions

set_option maxRecDepth 1064

noncomputable section

namespace Cert.KernelIdeal.GenP

open Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

abbrev Outs : Type := ℕ → (r : Ref sig .tc) → (c : Dev nD) → Buf (Elt F) ((c : Thread nD τ).loc r)

variable (m : (ℓ : Loc nD τ sig) → Buf (Elt F) ℓ) (outs : Outs (F := F))

abbrev V0 (c : Dev nD) : Valuation τ sig (Elt F) := fun b => m (c, b)
abbrev V1 (c : Dev nD) : Valuation τ sig (Elt F) := StableHlo.after hostOps0 (V0 m c)
abbrev V2 (c : Dev nD) : Valuation τ sig (Elt F) := Function.update (V1 m c) main_v16 (outs 2 main_v16 c)
abbrev V3 (c : Dev nD) : Valuation τ sig (Elt F) := StableHlo.after hostOps1 (V2 m outs c)
abbrev V4 (c : Dev nD) : Valuation τ sig (Elt F) := Function.update (V3 m outs c) main_v29 (outs 4 main_v29 c)
abbrev V5 (c : Dev nD) : Valuation τ sig (Elt F) := StableHlo.after hostOps2 (V4 m outs c)
abbrev V6 (c : Dev nD) : Valuation τ sig (Elt F) := Function.update (V5 m outs c) main_v42 (outs 6 main_v42 c)
abbrev V7 (c : Dev nD) : Valuation τ sig (Elt F) := StableHlo.after hostOps3 (V6 m outs c)
abbrev V8 (c : Dev nD) : Valuation τ sig (Elt F) := Function.update (Function.update (Function.update (V7 m outs c) main_v44_0 (outs 8 main_v44_0 c)) main_v44_1 (outs 8 main_v44_1 c)) main_v44_2 (outs 8 main_v44_2 c)
abbrev V9 (c : Dev nD) : Valuation τ sig (Elt F) := StableHlo.after hostOps4 (V8 m outs c)
abbrev V10 (c : Dev nD) : Valuation τ sig (Elt F) := Function.update (V9 m outs c) main_v52 (outs 10 main_v52 c)

theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_c, main_v4, main_v5, main_c_0, main_v6, main_v7, main_v8, main_v9, main_v10, main_cst, main_v11, main_v12, main_v13, main_v14, main_v15]
theorem hostOps0_writes : (hostOps0 : List (HloOp τ sig (Elt F))).Forall fun op => op.writes ⊆ (hostOps0_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_fresh : (hostOps1 : List (HloOp τ sig (Elt F))).Forall fun op => op.fresh = ∅ := by
  simp only [List.Forall]; repeat' constructor
abbrev hostOps1_W : List (Ref sig .tc) := [main_c_1, main_v17, main_v18, main_c_2, main_v19, main_v20, main_v21, main_v22, main_v23, main_cst_3, main_v24, main_v25, main_v26, main_v27, main_v28]
theorem hostOps1_writes : (hostOps1 : List (HloOp τ sig (Elt F))).Forall fun op => op.writes ⊆ (hostOps1_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_fresh : (hostOps2 : List (HloOp τ sig (Elt F))).Forall fun op => op.fresh = ∅ := by
  simp only [List.Forall]; repeat' constructor
abbrev hostOps2_W : List (Ref sig .tc) := [main_c_4, main_v30, main_v31, main_c_5, main_v32, main_v33, main_v34, main_v35, main_v36, main_cst_6, main_v37, main_v38, main_v39, main_v40, main_v41]
theorem hostOps2_writes : (hostOps2 : List (HloOp τ sig (Elt F))).Forall fun op => op.writes ⊆ (hostOps2_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_fresh : (hostOps3 : List (HloOp τ sig (Elt F))).Forall fun op => op.fresh = ∅ := by
  simp only [List.Forall]; repeat' constructor
abbrev hostOps3_W : List (Ref sig .tc) := [main_v43]
theorem hostOps3_writes : (hostOps3 : List (HloOp τ sig (Elt F))).Forall fun op => op.writes ⊆ (hostOps3_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_fresh : (hostOps4 : List (HloOp τ sig (Elt F))).Forall fun op => op.fresh = ∅ := by
  simp only [List.Forall]; repeat' constructor
abbrev hostOps4_W : List (Ref sig .tc) := [main_v45, main_v46, main_v47, main_v48, main_v49, main_v50, main_v51]
theorem hostOps4_writes : (hostOps4 : List (HloOp τ sig (Elt F))).Forall fun op => op.writes ⊆ (hostOps4_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ ([main_v16] : List (Ref sig .tc))) : V2 m outs c r = V1 m c r := by
  simp only [V2, Function.update_of_ne (StableHlo.devRef_ne_of_ne (List.ne_of_not_mem_cons h) : (Proc.devRef .tc r : DevRef τ sig) ≠ Proc.devRef .tc main_v16)]
theorem V3_of (c : Dev nD) (r : Ref sig .tc) (h : r ∉ hostOps1_W) : V3 m outs c r = V2 m outs c r :=
  StableHlo.after_of_writes_sub hostOps1 _ hostOps1_writes h
theorem V4_of (c : Dev nD) (r : Ref sig .tc) (h : r ∉ ([main_v29] : List (Ref sig .tc))) : V4 m outs c r = V3 m outs c r := by
  simp only [V4, Function.update_of_ne (StableHlo.devRef_ne_of_ne (List.ne_of_not_mem_cons h) : (Proc.devRef .tc r : DevRef τ sig) ≠ Proc.devRef .tc main_v29)]
theorem V5_of (c : Dev nD) (r : Ref sig .tc) (h : r ∉ hostOps2_W) : V5 m outs c r = V4 m outs c r :=
  StableHlo.after_of_writes_sub hostOps2 _ hostOps2_writes h
theorem V6_of (c : Dev nD) (r : Ref sig .tc) (h : r ∉ ([main_v42] : List (Ref sig .tc))) : V6 m outs c r = V5 m outs c r := by
  simp only [V6, Function.update_of_ne (StableHlo.devRef_ne_of_ne (List.ne_of_not_mem_cons h) : (Proc.devRef .tc r : DevRef τ sig) ≠ Proc.devRef .tc main_v42)]
theorem V7_of (c : Dev nD) (r : Ref sig .tc) (h : r ∉ hostOps3_W) : V7 m outs c r = V6 m outs c r :=
  StableHlo.after_of_writes_sub hostOps3 _ hostOps3_writes h
theorem V8_of (c : Dev nD) (r : Ref sig .tc) (h : r ∉ ([main_v44_0, main_v44_1, main_v44_2] : List (Ref sig .tc))) : V8 m outs c r = V7 m outs c r := by
  simp only [V8, Function.update_of_ne (StableHlo.devRef_ne_of_ne (List.ne_of_not_mem_cons h) : (Proc.devRef .tc r : DevRef τ sig) ≠ Proc.devRef .tc main_v44_0), Function.update_of_ne (StableHlo.devRef_ne_of_ne (List.ne_of_not_mem_cons (List.not_mem_of_not_mem_cons h)) : (Proc.devRef .tc r : DevRef τ sig) ≠ Proc.devRef .tc main_v44_1), Function.update_of_ne (StableHlo.devRef_ne_of_ne (List.ne_of_not_mem_cons (List.not_mem_of_not_mem_cons (List.not_mem_of_not_mem_cons h))) : (Proc.devRef .tc r : DevRef τ sig) ≠ Proc.devRef .tc main_v44_2)]
theorem V9_of (c : Dev nD) (r : Ref sig .tc) (h : r ∉ hostOps4_W) : V9 m outs c r = V8 m outs c r :=
  StableHlo.after_of_writes_sub hostOps4 _ hostOps4_writes h
theorem V10_of (c : Dev nD) (r : Ref sig .tc) (h : r ∉ ([main_v52] : List (Ref sig .tc))) : V10 m outs c r = V9 m outs c r := by
  simp only [V10, Function.update_of_ne (StableHlo.devRef_ne_of_ne (List.ne_of_not_mem_cons h) : (Proc.devRef .tc r : DevRef τ sig) ≠ Proc.devRef .tc main_v52)]

/-- A buffer that no host stretch writes and no region may change ends as launched. -/
theorem V10_kept (c : Dev nD) (r : Ref sig .tc)
    (h : ∀ l ∈ [hostOps0_W, [main_v16], hostOps1_W, [main_v29], hostOps2_W, [main_v42], hostOps3_W, [main_v44_0, main_v44_1, main_v44_2], hostOps4_W, [main_v52]], r ∉ l) :
    V10 m outs c r = m ((c : Thread nD τ).loc r) :=
  (V10_of m outs c r (h _ (by decide))).trans <| (V9_of m outs c r (h _ (by decide))).trans <| (V8_of m outs c r (h _ (by decide))).trans <|
  (V7_of m outs c r (h _ (by decide))).trans <| (V6_of m outs c r (h _ (by decide))).trans <| (V5_of m outs c r (h _ (by decide))).trans <|
  (V4_of m outs c r (h _ (by decide))).trans <| (V3_of m outs c r (h _ (by decide))).trans <| (V2_of m outs c r (h _ (by decide))).trans <|
  (V1_of m c r (h _ (by decide))).trans rfl

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 6 → Dev nD → sProp (MT nD τ sig Ix (Elt F) ℕ U Lvl))

def seg0 : HostSeg (Ix := Ix) (Name := ℕ) (U := U) (Lvl := Lvl) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (E 0)
def seg2 : HostSeg (Ix := Ix) (Name := ℕ) (U := U) (Lvl := Lvl) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m outs) (E 1)
def seg4 : HostSeg (Ix := Ix) (Name := ℕ) (U := U) (Lvl := Lvl) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (V4 m outs) (E 2)
def seg6 : HostSeg (Ix := Ix) (Name := ℕ) (U := U) (Lvl := Lvl) (pcfgs (F := F)) defs₀ 𝒱₀ L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (V6 m outs) (E 3)
def seg8 : HostSeg (Ix := Ix) (Name := ℕ) (U := U) (Lvl := Lvl) (pcfgs (F := F)) defs₀ 𝒱₀ L lv :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (V8 m outs) (E 4)

end Segs

section

variable {Ix : Type} [DecidableEq Ix] {U : Type} [URA U] {Lvl : Type} [Preorder Lvl]

abbrev adm : (p : Fin 5) → (pcfgs (F := F) p).Adm := fun p => (cfgs p).toPCfg_adm

abbrev segs (𝒱₀ : Variants) (L : GSem nD τ sig → Finset Ix) (lv : GSem nD τ sig → Ix → Lvl) (E : Fin 6 → Dev nD → sProp (MT nD τ sig Ix (Elt F) ℕ U Lvl)) (ι : Ix)
    (pdats : (p : Fin 5) → (c : Dev nD) → Dat τ (Elt F) Ix ℕ U Lvl (cfgs p) c) (R0 : RegionSeg (pcfgs (F := F)) adm pdats ι defs₀ 𝒱₀ L lv 0) (R1 : RegionSeg (pcfgs (F := F)) adm pdats ι defs₀ 𝒱₀ L lv 1) (R2 : RegionSeg (pcfgs (F := F)) adm pdats ι defs₀ 𝒱₀ L lv 2) (R3 : RegionSeg (pcfgs (F := F)) adm pdats ι defs₀ 𝒱₀ L lv 3) (R4 : RegionSeg (pcfgs (F := F)) adm pdats ι defs₀ 𝒱₀ L lv 4) (c : Dev nD) :
    List (Seg (pcfgs (F := F)) adm pdats ι defs₀ 𝒱₀ L lv) :=
  [.host (seg0 m 𝒱₀ L lv E), .region R0, .host (seg2 m outs 𝒱₀ L lv E), .region R1, .host (seg4 m outs 𝒱₀ L lv E), .region R2, .host (seg6 m outs 𝒱₀ L lv E), .region R3, .host (seg8 m outs 𝒱₀ L lv E), .region R4]

end

end Cert.KernelIdeal.GenP

end
-- ==== Proof.KernelIdeal.R0.lean ====
import proofs.«429475_j15058155340592_1_alg».proof.Proof.KernelIdealLaunch
import proofs.«429475_j15058155340592_1_alg».proof.Proof.Gen.KernelIdeal.Skeleton
import proofs.«429475_j15058155340592_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x7 := Rect.unit (s := S2000x7) ![0, 0] S2000x7.size inb_S2000x7_S2000x7_0_0
abbrev r0_1 : Rect S7x128 := Rect.unit (s := S7x128) ![0, 0] S7x128.size inb_S7x128_S7x128_0_0
abbrev r0_2 : Rect S1x128 := Rect.unit (s := S1x128) ![0, 0] S1x128.size inb_S1x128_S1x128_0_0
abbrev r0_3 : Rect S128x128 := Rect.unit (s := S128x128) ![0, 0] S128x128.size inb_S128x128_S128x128_0_0
abbrev r0_4 : Rect S2000x128 := Rect.unit (s := S2000x128) ![0, 0] S2000x128.size inb_S2000x128_S2000x128_0_0

def out0_6 (x0 : Vec F S2000x7 .f32) (x1 : Vec F S2000x7 .f32) (x2 : Vec F S7x128 .f32) (x3 : Vec F S1x128 .f32) (x4 : Vec F S128x128 .f32) (x5 : Vec F S1x128 .f32) : Vec F S2000x128 .f32 :=
  View.canon [⟨r0_4, k0_pay1 (View.ld x0 r0_0) (View.ld x1 r0_0) (View.ld x2 r0_1) (View.ld x3 r0_2) (View.ld x4 r0_3) (View.ld x5 r0_2)⟩]

set_option maxHeartbeats 1000000 in
theorem sound_kernel0 (c : Dev nD) {E : Set ℕ} {i : grid0.Coords} {a1 a2 : Memref sig .tc .vmem S2000x7 .f32} {a3 : Memref sig .tc .vmem S7x128 .f32} {a4 a6 : Memref sig .tc .vmem S1x128 .f32} {a5 : Memref sig .tc .vmem S128x128 .f32} {a7 : Memref sig .tc .vmem S2000x128 .f32}
    {h1 : a1.IsWhole} {h2 : a2.IsWhole} {h3 : a3.IsWhole} {h4 : a4.IsWhole} {h5 : a5.IsWhole} {h6 : a6.IsWhole} {h7 : a7.IsWhole}
    (x0 x1 : Vec F S2000x7 .f32) (x2 : Vec F S7x128 .f32) (x3 : Vec F S1x128 .f32) (x4 : Vec F S128x128 .f32) (x5 : Vec F S1x128 .f32) {K : PUnit → sProp 𝕄} :
    iprop((iprop(owns (c : Thread nD τ) a7 fullShare (out0_6 x0 x1 x2 x3 x4 x5) ∗ owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5) -∗ K ⟨⟩)
        ∗ (∃ d, owns (c : Thread nD τ) a7 fullShare d) ∗ owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5)
      ⊢ wp frame (wpE (defs₀ (F := F)) Variants.none c none) E (cc0__gin_layer_kernel i a1 h1 a2 h2 a3 h3 a4 h4 a5 h5 a6 h6 a7 h7) K := by
  simp only [cc0__gin_layer_kernel_eq_skeleton]; unfold cc0__gin_layer_kernel_skel owns
  iintro ⟨Hk, ⟨%d6, %f6, -, H6⟩, ⟨%f0, %hf0, H0⟩, ⟨%f1, %hf1, H1⟩, ⟨%f2, %hf2, H2⟩, ⟨%f3, %hf3, H3⟩, ⟨%f4, %hf4, H4⟩, ⟨%f5, %hf5, H5⟩⟩
  subst hf0 hf1 hf2 hf3 hf4 hf5
  sl_exec
  sl_step
  iapply Hk
  isplitl [H6]
  · iexists _; isplitr; swap; · iexact H6
    ipureintro; exact View.read_writes_eq_canon _ _ _ (View.cover_of_tiled _ S2000x128.size (by rfl))
  sl_close

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := rfl

theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0 (c : Dev nD) (w : Fin cfg0.W) (hw : w ≠ 6) (t : Fin cfg0.N) (d) : (dat0 V c).before w t d = (dat0 V c).after w t := by
  fin_cases w <;> first | exact absurd rfl hw | exact ((dat0 V c).before_in_eq_fetched _ rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0, show (dat0 V c).owesAt () t.succ = (dat0 V c).owesAt () t.castSucc from rfl]
  generalize (dat0 V c).owesAt () t.castSucc = O
  simp (disch := decide) only [before0]
  dsimp only [dat0]
  show _ ⊢ wp _ _ _ (bodyAt0 t) _
  iintro ⟨HΦ, Ho, ⟨%_, H0⟩, ⟨%_, H1⟩, ⟨%_, H2⟩, ⟨%_, H3⟩, ⟨%_, H4⟩, ⟨%_, H5⟩, ⟨%_, H6⟩⟩
  iapply sound_kernel0 c (iblk0 V c 0 t) (iblk0 V c 1 t) (iblk0 V c 2 t) (iblk0 V c 3 t) (iblk0 V c 4 t) (iblk0 V c 5 t)
  isplitl [HΦ Ho]
  · iintro ⟨H6, H0, H1, H2, H3, H4, H5⟩; sl_close
  sl_close

end Cert.KernelIdeal.Hand

end
-- ==== Proof.KernelIdeal.R1.lean ====
import proofs.«429475_j15058155340592_1_alg».proof.Proof.KernelIdealLaunch
import proofs.«429475_j15058155340592_1_alg».proof.Proof.Gen.KernelIdeal.Skeleton
import proofs.«429475_j15058155340592_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x128 := Rect.unit (s := S2000x128) ![0, 0] S2000x128.size inb_S2000x128_S2000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0

def out1_6 (x0 : Vec F S2000x128 .f32) (x1 : Vec F S2000x128 .f32) (x2 : Vec F S128x128 .f32) (x3 : Vec F S1x128 .f32) (x4 : Vec F S128x128 .f32) (x5 : Vec F S1x128 .f32) : Vec F S2000x128 .f32 :=
  View.canon [⟨r1_0, k1_pay1 (View.ld x0 r1_0) (View.ld x1 r1_0) (View.ld x2 r1_1) (View.ld x3 r1_2) (View.ld x4 r1_1) (View.ld x5 r1_2)⟩]

set_option maxHeartbeats 1000000 in
theorem sound_kernel1 (c : Dev nD) {E : Set ℕ} {i : grid1.Coords} {a1 a2 a7 : Memref sig .tc .vmem S2000x128 .f32} {a3 a5 : Memref sig .tc .vmem S128x128 .f32} {a4 a6 : Memref sig .tc .vmem S1x128 .f32}
    {h1 : a1.IsWhole} {h2 : a2.IsWhole} {h3 : a3.IsWhole} {h4 : a4.IsWhole} {h5 : a5.IsWhole} {h6 : a6.IsWhole} {h7 : a7.IsWhole}
    (x0 x1 : Vec F S2000x128 .f32) (x2 : Vec F S128x128 .f32) (x3 : Vec F S1x128 .f32) (x4 : Vec F S128x128 .f32) (x5 : Vec F S1x128 .f32) {K : PUnit → sProp 𝕄} :
    iprop((iprop(owns (c : Thread nD τ) a7 fullShare (out1_6 x0 x1 x2 x3 x4 x5) ∗ owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5) -∗ K ⟨⟩)
        ∗ (∃ d, owns (c : Thread nD τ) a7 fullShare d) ∗ owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5)
      ⊢ wp frame (wpE (defs₀ (F := F)) Variants.none c none) E (cc1__gin_layer_kernel i a1 h1 a2 h2 a3 h3 a4 h4 a5 h5 a6 h6 a7 h7) K := by
  simp only [cc1__gin_layer_kernel_eq_skeleton]; unfold cc1__gin_layer_kernel_skel owns
  iintro ⟨Hk, ⟨%d6, %f6, -, H6⟩, ⟨%f0, %hf0, H0⟩, ⟨%f1, %hf1, H1⟩, ⟨%f2, %hf2, H2⟩, ⟨%f3, %hf3, H3⟩, ⟨%f4, %hf4, H4⟩, ⟨%f5, %hf5, H5⟩⟩
  subst hf0 hf1 hf2 hf3 hf4 hf5
  sl_exec
  sl_step
  iapply Hk
  isplitl [H6]
  · iexists _; isplitr; swap; · iexact H6
    ipureintro; exact View.read_writes_eq_canon _ _ _ (View.cover_of_tiled _ S2000x128.size (by rfl))
  sl_close

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := rfl

theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1 (c : Dev nD) (w : Fin cfg1.W) (hw : w ≠ 6) (t : Fin cfg1.N) (d) : (dat1 V c).before w t d = (dat1 V c).after w t := by
  fin_cases w <;> first | exact absurd rfl hw | exact ((dat1 V c).before_in_eq_fetched _ rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1, show (dat1 V c).owesAt () t.succ = (dat1 V c).owesAt () t.castSucc from rfl]
  generalize (dat1 V c).owesAt () t.castSucc = O
  simp (disch := decide) only [before1]
  dsimp only [dat1]
  show _ ⊢ wp _ _ _ (bodyAt1 t) _
  iintro ⟨HΦ, Ho, ⟨%_, H0⟩, ⟨%_, H1⟩, ⟨%_, H2⟩, ⟨%_, H3⟩, ⟨%_, H4⟩, ⟨%_, H5⟩, ⟨%_, H6⟩⟩
  iapply sound_kernel1 c (iblk1 V c 0 t) (iblk1 V c 1 t) (iblk1 V c 2 t) (iblk1 V c 3 t) (iblk1 V c 4 t) (iblk1 V c 5 t)
  isplitl [HΦ Ho]
  · iintro ⟨H6, H0, H1, H2, H3, H4, H5⟩; sl_close
  sl_close

end Cert.KernelIdeal.Hand

end
-- ==== Proof.KernelIdeal.R2.lean ====
import proofs.«429475_j15058155340592_1_alg».proof.Proof.KernelIdealLaunch
import proofs.«429475_j15058155340592_1_alg».proof.Proof.Gen.KernelIdeal.Skeleton
import proofs.«429475_j15058155340592_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x128 := Rect.unit (s := S2000x128) ![0, 0] S2000x128.size inb_S2000x128_S2000x128_0_0
abbrev r2_1 : Rect S128x128 := Rect.unit (s := S128x128) ![0, 0] S128x128.size inb_S128x128_S128x128_0_0
abbrev r2_2 : Rect S1x128 := Rect.unit (s := S1x128) ![0, 0] S1x128.size inb_S1x128_S1x128_0_0

def out2_6 (x0 : Vec F S2000x128 .f32) (x1 : Vec F S2000x128 .f32) (x2 : Vec F S128x128 .f32) (x3 : Vec F S1x128 .f32) (x4 : Vec F S128x128 .f32) (x5 : Vec F S1x128 .f32) : Vec F S2000x128 .f32 :=
  View.canon [⟨r2_0, k2_pay1 (View.ld x0 r2_0) (View.ld x1 r2_0) (View.ld x2 r2_1) (View.ld x3 r2_2) (View.ld x4 r2_1) (View.ld x5 r2_2)⟩]

set_option maxHeartbeats 1000000 in
theorem sound_kernel2 (c : Dev nD) {E : Set ℕ} {i : grid2.Coords} {a1 a2 a7 : Memref sig .tc .vmem S2000x128 .f32} {a3 a5 : Memref sig .tc .vmem S128x128 .f32} {a4 a6 : Memref sig .tc .vmem S1x128 .f32}
    {h1 : a1.IsWhole} {h2 : a2.IsWhole} {h3 : a3.IsWhole} {h4 : a4.IsWhole} {h5 : a5.IsWhole} {h6 : a6.IsWhole} {h7 : a7.IsWhole}
    (x0 x1 : Vec F S2000x128 .f32) (x2 : Vec F S128x128 .f32) (x3 : Vec F S1x128 .f32) (x4 : Vec F S128x128 .f32) (x5 : Vec F S1x128 .f32) {K : PUnit → sProp 𝕄} :
    iprop((iprop(owns (c : Thread nD τ) a7 fullShare (out2_6 x0 x1 x2 x3 x4 x5) ∗ owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5) -∗ K ⟨⟩)
        ∗ (∃ d, owns (c : Thread nD τ) a7 fullShare d) ∗ owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5)
      ⊢ wp frame (wpE (defs₀ (F := F)) Variants.none c none) E (cc2__gin_layer_kernel i a1 h1 a2 h2 a3 h3 a4 h4 a5 h5 a6 h6 a7 h7) K := by
  simp only [cc2__gin_layer_kernel_eq_skeleton]; unfold cc2__gin_layer_kernel_skel owns
  iintro ⟨Hk, ⟨%d6, %f6, -, H6⟩, ⟨%f0, %hf0, H0⟩, ⟨%f1, %hf1, H1⟩, ⟨%f2, %hf2, H2⟩, ⟨%f3, %hf3, H3⟩, ⟨%f4, %hf4, H4⟩, ⟨%f5, %hf5, H5⟩⟩
  subst hf0 hf1 hf2 hf3 hf4 hf5
  sl_exec
  sl_step
  iapply Hk
  isplitl [H6]
  · iexists _; isplitr; swap; · iexact H6
    ipureintro; exact View.read_writes_eq_canon _ _ _ (View.cover_of_tiled _ S2000x128.size (by rfl))
  sl_close

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := rfl

theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2 (c : Dev nD) (w : Fin cfg2.W) (hw : w ≠ 6) (t : Fin cfg2.N) (d) : (dat2 V c).before w t d = (dat2 V c).after w t := by
  fin_cases w <;> first | exact absurd rfl hw | exact ((dat2 V c).before_in_eq_fetched _ rfl (fun _ => rfl) (fun _ _ _ => rfl) (fun _ => rfl) t d).trans rfl

theorem body_obligation2 (c : Dev nD) : BodyObligation (dat2 (F := F) V c) (defs₀ (F := F)) Variants.none () Set.univ := fun t => by
  rw [bigSep_W2, bigSep_W2, show (dat2 V c).owesAt () t.succ = (dat2 V c).owesAt () t.castSucc from rfl]
  generalize (dat2 V c).owesAt () t.castSucc = O
  simp (disch := decide) only [before2]
  dsimp only [dat2]
  show _ ⊢ wp _ _ _ (bodyAt2 t) _
  iintro ⟨HΦ, Ho, ⟨%_, H0⟩, ⟨%_, H1⟩, ⟨%_, H2⟩, ⟨%_, H3⟩, ⟨%_, H4⟩, ⟨%_, H5⟩, ⟨%_, H6⟩⟩
  iapply sound_kernel2 c (iblk2 V c 0 t) (iblk2 V c 1 t) (iblk2 V c 2 t) (iblk2 V c 3 t) (iblk2 V c 4 t) (iblk2 V c 5 t)
  isplitl [HΦ Ho]
  · iintro ⟨H6, H0, H1, H2, H3, H4, H5⟩; sl_close
  sl_close

end Cert.KernelIdeal.Hand

end
-- ==== Proof.KernelIdeal.R3.lean ====
import proofs.«429475_j15058155340592_1_alg».proof.Proof.KernelIdealLaunch
import proofs.«429475_j15058155340592_1_alg».proof.Proof.Gen.KernelIdeal.Skeleton
import proofs.«429475_j15058155340592_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val % 50 = 0 :=
  (by decide +kernel : ∀ t : Fin grid3.N, cond3_0 (grid3.coords t) ↔ t.val % 50 = 0)

abbrev ms3_0 (t : Fin cfg3.N) : Memref sig .tc .vmem S2000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2000x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2000x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2000x1 .i32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1024x128 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1024x128 .f32 := win3_6.stage (cfg3.slots t 6)
abbrev hs3_6 (t : Fin cfg3.N) : (ms3_6 t).IsWhole := hstage3_6 ((cfg3.slots t 6).cast nbuf3_6)

section
variable (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x1 .i32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole)

section
variable (hc0 : cond3_0 i) (x0 : Vec F S2000x128 .f32) (x1 : Vec F S2000x128 .f32) (x2 : Vec F S2000x128 .f32) (x3 : Vec F S2000x1 .i32)
include hc0

set_option maxHeartbeats 1000000 in
noncomputable def kernelRun3_A :
    { L : List (View.Piece (Elt F) S1024x128 .f32) × List (View.Piece (Elt F) S1024x128 .f32) × List (View.Piece (Elt F) S1024x128 .f32) //
      (∀ y, ∃ pc ∈ L.1, y ∈ pc.1.set) ∧ (∀ y, ∃ pc ∈ L.2.1, y ∈ pc.1.set) ∧ (∀ y, ∃ pc ∈ L.2.2, y ∈ pc.1.set) ∧
      ∀ (E : Set ℕ) (K : PUnit → sProp 𝕄),
        iprop(owns c.tc arg1 fullShare x0 ∗ owns c.tc arg2 fullShare x1 ∗ owns c.tc arg3 fullShare x2 ∗ owns c.tc arg4 fullShare x3
            ∗ (∃ d, owns c.tc arg5 fullShare d) ∗ (∃ d, owns c.tc arg6 fullShare d) ∗ (∃ d, owns c.tc arg7 fullShare d)
            ∗ (iprop(owns c.tc arg1 fullShare x0 ∗ owns c.tc arg2 fullShare x1 ∗ owns c.tc arg3 fullShare x2 ∗ owns c.tc arg4 fullShare x3
                ∗ (∃ f, arg5.view.loc c.tc ↦[arg5.view.set]{fullShare} arg5.view.writes (Elt F) f L.1)
                ∗ (∃ f, arg6.view.loc c.tc ↦[arg6.view.set]{fullShare} arg6.view.writes (Elt F) f L.2.1)
                ∗ (∃ f, arg7.view.loc c.tc ↦[arg7.view.set]{fullShare} arg7.view.writes (Elt F) f L.2.2)) -∗ K ⟨⟩))
          ⊢ wp frame (wpE (defs₀ (F := F)) Variants.none c none) E (cc3__pool_kernel i arg1 harg1 arg2 harg2 arg3 harg3 arg4 harg4 arg5 harg5 arg6 harg6 arg7 harg7) K } := by
  refine ⟨(?_, ?_, ?_), ?c4, ?c5, ?c6, fun E K => ?run⟩
  case run =>
    simp only [cc3__pool_kernel_eq_skeleton]; unfold cc3__pool_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6
  all_goals exact fun y => View.cover_of_tiledL _ S1024x128.size (by sl_kernel_rfl) y

def out3_A_4 : Vec F S1024x128 .f32 :=
  View.canon (kernelRun3_A c i arg1 harg1 arg2 harg2 arg3 harg3 arg4 harg4 arg5 harg5 arg6 harg6 arg7 harg7 hc0 x0 x1 x2 x3).1.1
def out3_A_5 : Vec F S1024x128 .f32 :=
  View.canon (kernelRun3_A c i arg1 harg1 arg2 harg2 arg3 harg3 arg4 harg4 arg5 harg5 arg6 harg6 arg7 harg7 hc0 x0 x1 x2 x3).1.2.1
def out3_A_6 : Vec F S1024x128 .f32 :=
  View.canon (kernelRun3_A c i arg1 harg1 arg2 harg2 arg3 harg3 arg4 harg4 arg5 harg5 arg6 harg6 arg7 harg7 hc0 x0 x1 x2 x3).1.2.2
end

section
variable (hc0 : ¬cond3_0 i) (x0 : Vec F S2000x128 .f32) (x1 : Vec F S2000x128 .f32) (x2 : Vec F S2000x128 .f32) (x3 : Vec F S2000x1 .i32) (xo4 : Vec F S1024x128 .f32) (xo5 : Vec F S1024x128 .f32) (xo6 : Vec F S1024x128 .f32)
include hc0

set_option maxHeartbeats 1000000 in
noncomputable def kernelRun3_B :
    { L : List (View.Piece (Elt F) S1024x128 .f32) × List (View.Piece (Elt F) S1024x128 .f32) × List (View.Piece (Elt F) S1024x128 .f32) //
      (∀ y, ∃ pc ∈ L.1, y ∈ pc.1.set) ∧ (∀ y, ∃ pc ∈ L.2.1, y ∈ pc.1.set) ∧ (∀ y, ∃ pc ∈ L.2.2, y ∈ pc.1.set) ∧
      ∀ (E : Set ℕ) (K : PUnit → sProp 𝕄),
        iprop(owns c.tc arg1 fullShare x0 ∗ owns c.tc arg2 fullShare x1 ∗ owns c.tc arg3 fullShare x2 ∗ owns c.tc arg4 fullShare x3
            ∗ owns c.tc arg5 fullShare xo4 ∗ owns c.tc arg6 fullShare xo5 ∗ owns c.tc arg7 fullShare xo6
            ∗ (iprop(owns c.tc arg1 fullShare x0 ∗ owns c.tc arg2 fullShare x1 ∗ owns c.tc arg3 fullShare x2 ∗ owns c.tc arg4 fullShare x3
                ∗ (∃ f, arg5.view.loc c.tc ↦[arg5.view.set]{fullShare} arg5.view.writes (Elt F) f L.1)
                ∗ (∃ f, arg6.view.loc c.tc ↦[arg6.view.set]{fullShare} arg6.view.writes (Elt F) f L.2.1)
                ∗ (∃ f, arg7.view.loc c.tc ↦[arg7.view.set]{fullShare} arg7.view.writes (Elt F) f L.2.2)) -∗ K ⟨⟩))
          ⊢ wp frame (wpE (defs₀ (F := F)) Variants.none c none) E (cc3__pool_kernel i arg1 harg1 arg2 harg2 arg3 harg3 arg4 harg4 arg5 harg5 arg6 harg6 arg7 harg7) K } := by
  refine ⟨(?_, ?_, ?_), ?c4, ?c5, ?c6, fun E K => ?run⟩
  case run =>
    simp only [cc3__pool_kernel_eq_skeleton]; unfold cc3__pool_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6
  all_goals exact fun y => View.cover_of_tiledL _ S1024x128.size (by sl_kernel_rfl) y

def out3_B_4 : Vec F S1024x128 .f32 :=
  View.canon (kernelRun3_B c i arg1 harg1 arg2 harg2 arg3 harg3 arg4 harg4 arg5 harg5 arg6 harg6 arg7 harg7 hc0 x0 x1 x2 x3 xo4 xo5 xo6).1.1
def out3_B_5 : Vec F S1024x128 .f32 :=
  View.canon (kernelRun3_B c i arg1 harg1 arg2 harg2 arg3 harg3 arg4 harg4 arg5 harg5 arg6 harg6 arg7 harg7 hc0 x0 x1 x2 x3 xo4 xo5 xo6).1.2.1
def out3_B_6 : Vec F S1024x128 .f32 :=
  View.canon (kernelRun3_B c i arg1 harg1 arg2 harg2 arg3 harg3 arg4 harg4 arg5 harg5 arg6 harg6 arg7 harg7 hc0 x0 x1 x2 x3 xo4 xo5 xo6).1.2.2
end
end

def outA3 (c : Dev nD) (t : Fin cfg3.N) (h0 : t.val % 50 = 0) : Vec F S1024x128 .f32 × Vec F S1024x128 .f32 × Vec F S1024x128 .f32 :=
  (out3_A_4 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) ((hcond3_0 t).mpr h0) (iblk3 V c 0 t) (iblk3 V c 1 t) (iblk3 V c 2 t) (iblk3 V c 3 t),
       out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) ((hcond3_0 t).mpr h0) (iblk3 V c 0 t) (iblk3 V c 1 t) (iblk3 V c 2 t) (iblk3 V c 3 t),
       out3_A_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) ((hcond3_0 t).mpr h0) (iblk3 V c 0 t) (iblk3 V c 1 t) (iblk3 V c 2 t) (iblk3 V c 3 t))

def outB3 (c : Dev nD) (t : Fin cfg3.N) (h0 : ¬t.val % 50 = 0) (xo : Vec F S1024x128 .f32 × Vec F S1024x128 .f32 × Vec F S1024x128 .f32) : Vec F S1024x128 .f32 × Vec F S1024x128 .f32 × Vec F S1024x128 .f32 :=
  (out3_B_4 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (fun h => h0 ((hcond3_0 t).mp h)) (iblk3 V c 0 t) (iblk3 V c 1 t) (iblk3 V c 2 t) (iblk3 V c 3 t) xo.1 xo.2.1 xo.2.2,
       out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (fun h => h0 ((hcond3_0 t).mp h)) (iblk3 V c 0 t) (iblk3 V c 1 t) (iblk3 V c 2 t) (iblk3 V c 3 t) xo.1 xo.2.1 xo.2.2,
       out3_B_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (fun h => h0 ((hcond3_0 t).mp h)) (iblk3 V c 0 t) (iblk3 V c 1 t) (iblk3 V c 2 t) (iblk3 V c 3 t) xo.1 xo.2.1 xo.2.2)

def outsAt3 (c : Dev nD) : (n : ℕ) → n < cfg3.N → Vec F S1024x128 .f32 × Vec F S1024x128 .f32 × Vec F S1024x128 .f32
  | 0, hn => outA3 V c ⟨0, hn⟩ (Nat.zero_mod _)
  | n + 1, hn => if h0 : (n + 1) % 50 = 0 then outA3 V c ⟨n + 1, hn⟩ h0 else outB3 V c ⟨n + 1, hn⟩ h0 (outsAt3 c n (Nat.lt_of_succ_lt hn))

theorem outsAt3_A (c : Dev nD) (t : Fin cfg3.N) (h0 : t.val % 50 = 0) :
    outsAt3 V c t.val t.isLt =
      (out3_A_4 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) ((hcond3_0 t).mpr h0) (iblk3 V c 0 t) (iblk3 V c 1 t) (iblk3 V c 2 t) (iblk3 V c 3 t),
       out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) ((hcond3_0 t).mpr h0) (iblk3 V c 0 t) (iblk3 V c 1 t) (iblk3 V c 2 t) (iblk3 V c 3 t),
       out3_A_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) ((hcond3_0 t).mpr h0) (iblk3 V c 0 t) (iblk3 V c 1 t) (iblk3 V c 2 t) (iblk3 V c 3 t)) := by
  obtain ⟨n, hn⟩ := t
  cases n with
  | zero => exact rfl
  | succ n => exact (dif_pos h0).trans rfl

theorem outsAt3_B (c : Dev nD) (t : Fin cfg3.N) (h0 : ¬t.val % 50 = 0) :
    outsAt3 V c t.val t.isLt =
      (out3_B_4 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (fun h => h0 ((hcond3_0 t).mp h)) (iblk3 V c 0 t) (iblk3 V c 1 t) (iblk3 V c 2 t) (iblk3 V c 3 t) (outsAt3 V c (t.val - 1) (Nat.lt_of_le_of_lt (Nat.sub_le _ _) t.isLt)).1 (outsAt3 V c (t.val - 1) (Nat.lt_of_le_of_lt (Nat.sub_le _ _) t.isLt)).2.1 (outsAt3 V c (t.val - 1) (Nat.lt_of_le_of_lt (Nat.sub_le _ _) t.isLt)).2.2,
       out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (fun h => h0 ((hcond3_0 t).mp h)) (iblk3 V c 0 t) (iblk3 V c 1 t) (iblk3 V c 2 t) (iblk3 V c 3 t) (outsAt3 V c (t.val - 1) (Nat.lt_of_le_of_lt (Nat.sub_le _ _) t.isLt)).1 (outsAt3 V c (t.val - 1) (Nat.lt_of_le_of_lt (Nat.sub_le _ _) t.isLt)).2.1 (outsAt3 V c (t.val - 1) (Nat.lt_of_le_of_lt (Nat.sub_le _ _) t.isLt)).2.2,
       out3_B_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (fun h => h0 ((hcond3_0 t).mp h)) (iblk3 V c 0 t) (iblk3 V c 1 t) (iblk3 V c 2 t) (iblk3 V c 3 t) (outsAt3 V c (t.val - 1) (Nat.lt_of_le_of_lt (Nat.sub_le _ _) t.isLt)).1 (outsAt3 V c (t.val - 1) (Nat.lt_of_le_of_lt (Nat.sub_le _ _) t.isLt)).2.1 (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
    | ⟨5, _⟩ => (outsAt3 V c t.val t.isLt).2.1
    | ⟨6, _⟩ => (outsAt3 V c t.val t.isLt).2.2
  Φ _ := Pipeline.ΦA spec3 c
  q _ := fullShare
  owed _ := 0

theorem A_eq3 (c : Dev nD) (w : Fin cfg3.W) : (dat3 V c).A w = V c (Pipeline.arrRef spec3 w) := rfl

theorem after3_4 (c : Dev nD) (t : Fin cfg3.N) : (dat3 V c).after 4 t = (outsAt3 V c t.val t.isLt).1 := by dsimp only [dat3]
theorem after3_5 (c : Dev nD) (t : Fin cfg3.N) : (dat3 V c).after 5 t = (outsAt3 V c t.val t.isLt).2.1 := by dsimp only [dat3]
theorem after3_6 (c : Dev nD) (t : Fin cfg3.N) : (dat3 V c).after 6 t = (outsAt3 V c t.val t.isLt).2.2 := by dsimp only [dat3]

theorem before3 (c : Dev nD) : ∀ w : Fin cfg3.W, (cfg3.win w).isOut = false → ∀ t d, (dat3 V c).before w t d = (dat3 V c).after w t
  | ⟨0, _⟩, h, t, d | ⟨1, _⟩, h, t, d | ⟨2, _⟩, h, t, d | ⟨3, _⟩, h, t, d =>
    ((dat3 V c).before_in_eq_fetched _ h (fun _ => rfl) (fun _ _ _ => rfl) (fun _ => rfl) t d).trans rfl
  | ⟨4, _⟩, h, _, _ | ⟨5, _⟩, h, _, _ | ⟨6, _⟩, h, _, _ => Bool.noConfusion h

theorem acc3 (c : Dev nD) (t : Fin cfg3.N) (h0 : ¬t.val % 50 = 0) (w : Fin cfg3.W) (hw : (cfg3.win w).isOut = true)
    (hfl : ∀ s : Fin cfg3.N, (cfg3.win w).flush s = true ↔ s.val % 50 = 49) (hclip : ∀ i a, (cfg3.win w).clip i a = none) (d) :
    (dat3 V c).before w t d = (dat3 V c).after w ⟨t.val - 1, Nat.lt_of_le_of_lt (Nat.sub_le _ _) t.isLt⟩ := by
  have hN : t.val < 50 := lt_of_lt_of_eq t.isLt (show cfg3.N = 50 from N_3)
  exact Dat.before_out_kept _ w hw t (by omega) (Bool.eq_false_iff.mpr fun h => by have := (hfl _).mp h; dsimp only at this; omega) (fun _ => rfl) hclip _

set_option maxHeartbeats 1600000 in
theorem body_obligation3 (c : Dev nD) : BodyObligation (dat3 (F := F) V c) (defs₀ (F := F)) Variants.none () Set.univ := fun t => by
  show iprop(_ ∗ _ ∗ bigSep _ fun w => iprop(∃ d, owns _ _ _ _)) ⊢ wp _ _ _ (bodyAt3 t) fun _ => iprop((dat3 V c).Φ t.castSucc ∗ (dat3 V c).owesAt () t.castSucc ∗ bigSep _ fun w => owns _ _ _ _)
  rw [bigSep_W3, bigSep_W3]
  simp only [before3 V c 0 rfl, before3 V c 1 rfl, before3 V c 2 rfl, before3 V c 3 rfl]
  by_cases h0 : t.val % 50 = 0
  · dsimp only [dat3]
    rw [outsAt3_A V c t h0]
    dsimp only
    unfold out3_A_4 out3_A_5 out3_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun3_A c (grid3.coords t) _ _ _ _ _ _ _ _ _ _ _ _ _ _ ((hcond3_0 t).mpr h0) _ _ _ _).2.2.2.2 Set.univ _)
    iframe H0 H1 H2 H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    iframe HΦ Ho H0 H1 H2 H3
    isplitl [H4]
    · unfold owns; iexists _; isplitr
      swap; · iexact H4
      ipureintro; exact View.read_writes_eq_canon _ _ _ (kernelRun3_A c ..).2.1
    isplitl [H5]
    · unfold owns; iexists _; isplitr
      swap; · iexact H5
      ipureintro; exact View.read_writes_eq_canon _ _ _ (kernelRun3_A c ..).2.2.1
    unfold owns; iexists _; isplitr
    swap; · iexact H6
    ipureintro; exact View.read_writes_eq_canon _ _ _ (kernelRun3_A c ..).2.2.2.1
  · simp only [acc3 V c t h0 4 rfl flush3_4 (fun _ _ => rfl), acc3 V c t h0 5 rfl flush3_5 (fun _ _ => rfl), acc3 V c t h0 6 rfl flush3_6 (fun _ _ => rfl)]
    dsimp only [dat3]
    rw [outsAt3_B V c t h0]
    dsimp only
    unfold out3_B_4 out3_B_5 out3_B_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun3_B c (grid3.coords t) _ _ _ _ _ _ _ _ _ _ _ _ _ _ (fun h => h0 ((hcond3_0 t).mp h)) _ _ _ _ _ _ _).2.2.2.2 Set.univ _)
    iframe H0 H1 H2 H3 H4 H5 H6
    iintro ⟨H0, H1, H2, H3, ⟨%e4, H4⟩, ⟨%e5, H5⟩, ⟨%e6, H6⟩⟩
    iframe HΦ Ho H0 H1 H2 H3
    isplitl [H4]
    · unfold owns; iexists _; isplitr
      swap; · iexact H4
      ipureintro; exact View.read_writes_eq_canon _ _ _ (kernelRun3_B c ..).2.1
    isplitl [H5]
    · unfold owns; iexists _; isplitr
      swap; · iexact H5
      ipureintro; exact View.read_writes_eq_canon _ _ _ (kernelRun3_B c ..).2.2.1
    unfold owns; iexists _; isplitr
    swap; · iexact H6
    ipureintro; exact View.read_writes_eq_canon _ _ _ (kernelRun3_B c ..).2.2.2.1

end Cert.KernelIdeal.Hand

end
-- ==== Proof.KernelIdeal.R4.lean ====
import proofs.«429475_j15058155340592_1_alg».proof.Proof.KernelIdealLaunch
import proofs.«429475_j15058155340592_1_alg».proof.Proof.Gen.KernelIdeal.Skeleton
import proofs.«429475_j15058155340592_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S1024x384 := Rect.unit (s := S1024x384) ![0, 0] S1024x384.size inb_S1024x384_S1024x384_0_0
abbrev r4_1 : Rect S384x256 := Rect.unit (s := S384x256) ![0, 0] S384x256.size inb_S384x256_S384x256_0_0
abbrev r4_2 : Rect S1x256 := Rect.unit (s := S1x256) ![0, 0] S1x256.size inb_S1x256_S1x256_0_0
abbrev r4_3 : Rect S256x2 := Rect.unit (s := S256x2) ![0, 0] S256x2.size inb_S256x2_S256x2_0_0
abbrev r4_4 : Rect S1x2 := Rect.unit (s := S1x2) ![0, 0] S1x2.size inb_S1x2_S1x2_0_0
abbrev r4_5 : Rect S1024x2 := Rect.unit (s := S1024x2) ![0, 0] S1024x2.size inb_S1024x2_S1024x2_0_0

def out4_9 (x0 : Vec F S1024x384 .f32) (x1 : Vec F S384x256 .f32) (x2 : Vec F S1x256 .f32) (x3 : Vec F S1x256 .f32) (x4 : Vec F S1x256 .f32) (x5 : Vec F S1x256 .f32) (x6 : Vec F S1x256 .f32) (x7 : Vec F S256x2 .f32) (x8 : Vec F S1x2 .f32) : Vec F S1024x2 .f32 :=
  View.canon [⟨r4_5, k4_pay1 (k4_pay2 (View.ld x0 r4_0) (View.ld x1 r4_1) (View.ld x2 r4_2) (View.ld x6 r4_2) (View.ld x5 r4_2) (View.ld x3 r4_2) (View.ld x4 r4_2) (View.ld x7 r4_3)) (k4_pay3 (View.ld x8 r4_4))⟩]

set_option maxHeartbeats 4000000 in
theorem sound_kernel4 (c : Dev nD) (E : Set ℕ) (i : grid4.Coords) (arg1 : Memref sig .tc .vmem S1024x384 .f32) (harg1 : arg1.IsWhole) (arg2 : Memref sig .tc .vmem S384x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x2 .f32) (harg8 : arg8.IsWhole) (arg9 : Memref sig .tc .vmem S1x2 .f32) (harg9 : arg9.IsWhole) (arg10 : Memref sig .tc .vmem S1024x2 .f32) (harg10 : arg10.IsWhole)
    (x0 : Vec F S1024x384 .f32) (x1 : Vec F S384x256 .f32) (x2 : Vec F S1x256 .f32) (x3 : Vec F S1x256 .f32) (x4 : Vec F S1x256 .f32) (x5 : Vec F S1x256 .f32) (x6 : Vec F S1x256 .f32) (x7 : Vec F S256x2 .f32) (x8 : Vec F S1x2 .f32) (K : PUnit → sProp 𝕄) :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7 ∗ owns c.tc arg9 fullShare x8 ∗ (∃ d, owns c.tc arg10 fullShare d)
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7 ∗ owns c.tc arg9 fullShare x8 ∗ owns c.tc arg10 fullShare (out4_9 x0 x1 x2 x3 x4 x5 x6 x7 x8)) -∗ K ⟨⟩))
      ⊢ wp frame (wpE (defs₀ (F := F)) Variants.none c none) E (cc4__clf_kernel i arg1 harg1 arg2 harg2 arg3 harg3 arg4 harg4 arg5 harg5 arg6 harg6 arg7 harg7 arg8 harg8 arg9 harg9 arg10 harg10) K := by
  simp only [cc4__clf_kernel_eq_skeleton]; unfold cc4__clf_kernel_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (View.cover_of_tiled _ S1024x2.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t) (iblk4 V c 5 t) (iblk4 V c 6 t) (iblk4 V c 7 t) (iblk4 V c 8 t)
  Φ _ := Pipeline.ΦA spec4 c
  q _ := fullShare
  owed _ := 0

theorem A_eq4 (c : Dev nD) (w : Fin cfg4.W) : (dat4 V c).A w = V c (Pipeline.arrRef spec4 w) := rfl

theorem after4_9 (c : Dev nD) (t : Fin cfg4.N) : (dat4 V c).after 9 t = out4_9 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]

theorem before4 (c : Dev nD) : ∀ w : Fin cfg4.W, (cfg4.win w).isOut = false → ∀ t d, (dat4 V c).before w t d = (dat4 V c).after w t
  | ⟨9, _⟩, h, _, _ => Bool.noConfusion h
  | ⟨0, _⟩, h, t, d | ⟨1, _⟩, h, t, d | ⟨2, _⟩, h, t, d | ⟨3, _⟩, h, t, d | ⟨4, _⟩, h, t, d | ⟨5, _⟩, h, t, d | ⟨6, _⟩, h, t, d | ⟨7, _⟩, h, t, d | ⟨8, _⟩, h, t, d =>
    ((dat4 V c).before_in_eq_fetched _ h (fun _ => rfl) (fun _ _ _ => rfl) (fun _ => rfl) t d).trans rfl

theorem body_obligation4 (c : Dev nD) : BodyObligation (dat4 (F := F) V c) (defs₀ (F := F)) Variants.none () Set.univ := fun t => by
  show iprop(_ ∗ _ ∗ bigSep _ fun w => iprop(∃ d, owns _ _ _ _)) ⊢ wp _ _ _ (bodyAt4 t) fun _ => iprop((dat4 V c).Φ t.castSucc ∗ (dat4 V c).owesAt () t.castSucc ∗ bigSep _ fun w => owns _ _ _ _)
  rw [bigSep_W4, bigSep_W4]
  simp only [before4 V c 0 rfl, before4 V c 1 rfl, before4 V c 2 rfl, before4 V c 3 rfl, before4 V c 4 rfl, before4 V c 5 rfl, before4 V c 6 rfl, before4 V c 7 rfl, before4 V c 8 rfl]
  dsimp only [dat4]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel4 c Set.univ _ _ _ _ _ _ _ _ _ _ _ _ _ _ _ _ _ _ _ _ _ _ _ _ _ _ _ _ _ _ _)
  iframe H0 H1 H2 H3 H4 H5 H6 H7 H8
  isplitl [H9]; · iexists _; iexact H9
  iintro ⟨H0, H1, H2, H3, H4, H5, H6, H7, H8, H9⟩
  iframe

end Cert.KernelIdeal.Hand

end
-- ==== Proof.KernelIdeal.Frame.lean ====
import proofs.«429475_j15058155340592_1_alg».proof.Proof.KernelIdealRegions
import proofs.«429475_j15058155340592_1_alg».proof.Proof.KernelIdeal.R0
import proofs.«429475_j15058155340592_1_alg».proof.Proof.KernelIdeal.R1
import proofs.«429475_j15058155340592_1_alg».proof.Proof.KernelIdeal.R2
import proofs.«429475_j15058155340592_1_alg».proof.Proof.KernelIdeal.R3
import proofs.«429475_j15058155340592_1_alg».proof.Proof.KernelIdeal.R4

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def outsS0 : GenP.Outs (F := F) := fun _ r c => m ((c : Thread nD τ).loc r)

def o2 (c : Dev nD) : Buf (Elt F) ((c : Thread nD τ).loc main_v16) :=
  (dat0 (fun c b => GenP.V1 m c b) c).arrAt 6 cfg0.N
def outsS1 : GenP.Outs (F := F) := fun J => Function.update (outsS0 m J) main_v16 (fun c => o2 m c)

def o4 (c : Dev nD) : Buf (Elt F) ((c : Thread nD τ).loc main_v29) :=
  (dat1 (fun c b => GenP.V3 m (outsS1 m) c b) c).arrAt 6 cfg1.N
def outsS2 : GenP.Outs (F := F) := fun J => Function.update (outsS1 m J) main_v29 (fun c => o4 m c)

def o6 (c : Dev nD) : Buf (Elt F) ((c : Thread nD τ).loc main_v42) :=
  (dat2 (fun c b => GenP.V5 m (outsS2 m) c b) c).arrAt 6 cfg2.N
def outsS3 : GenP.Outs (F := F) := fun J => Function.update (outsS2 m J) main_v42 (fun c => o6 m c)

def o8_0 (c : Dev nD) : Buf (Elt F) ((c : Thread nD τ).loc main_v44_0) :=
  (dat3 (fun c b => GenP.V7 m (outsS3 m) c b) c).arrAt 4 cfg3.N
def o8_1 (c : Dev nD) : Buf (Elt F) ((c : Thread nD τ).loc main_v44_1) :=
  (dat3 (fun c b => GenP.V7 m (outsS3 m) c b) c).arrAt 5 cfg3.N
def o8_2 (c : Dev nD) : Buf (Elt F) ((c : Thread nD τ).loc main_v44_2) :=
  (dat3 (fun c b => GenP.V7 m (outsS3 m) c b) c).arrAt 6 cfg3.N
def outsS4 : GenP.Outs (F := F) := fun J =>
  Function.update (Function.update (Function.update (outsS3 m J) main_v44_0 (fun c => o8_0 m c)) main_v44_1 (fun c => o8_1 m c)) main_v44_2 (fun c => o8_2 m c)

def o10 (c : Dev nD) : Buf (Elt F) ((c : Thread nD τ).loc main_v52) :=
  (dat4 (fun c b => GenP.V9 m (outsS4 m) c b) c).arrAt 9 cfg4.N
def outs : GenP.Outs (F := F) := fun J => Function.update (outsS4 m J) main_v52 (fun c => o10 m c)
theorem Vin1_eq : (fun (c : Dev nD) (b : Ref sig .tc) => GenP.V3 m (outs m) c b) = fun (c : Dev nD) (b : Ref sig .tc) => GenP.V3 m (outsS1 m) c b := by
  funext c b; simp (disch := decide) only [GenP.V3, GenP.V2, outs, outsS4, outsS3, outsS2, Function.update_of_ne]
theorem Vin2_eq : (fun (c : Dev nD) (b : Ref sig .tc) => GenP.V5 m (outs m) c b) = fun (c : Dev nD) (b : Ref sig .tc) => GenP.V5 m (outsS2 m) c b := by
  funext c b; simp (disch := decide) only [GenP.V5, GenP.V4, GenP.V3, GenP.V2, outs, outsS4, outsS3, Function.update_of_ne]
theorem Vin3_eq : (fun (c : Dev nD) (b : Ref sig .tc) => GenP.V7 m (outs m) c b) = fun (c : Dev nD) (b : Ref sig .tc) => GenP.V7 m (outsS3 m) c b := by
  funext c b; simp (disch := decide) only [GenP.V7, GenP.V6, GenP.V5, GenP.V4, GenP.V3, GenP.V2, outs, outsS4, Function.update_of_ne]
theorem Vin4_eq : (fun (c : Dev nD) (b : Ref sig .tc) => GenP.V9 m (outs m) c b) = fun (c : Dev nD) (b : Ref sig .tc) => GenP.V9 m (outsS4 m) c b := by
  funext c b; simp (disch := decide) only [GenP.V9, GenP.V8, GenP.V7, GenP.V6, GenP.V5, GenP.V4, GenP.V3, GenP.V2, outs, Function.update_of_ne]

theorem outs_2 (c : Dev nD) : outs m 2 main_v16 c = (dat0 (fun c b => GenP.V1 m c b) c).arrAt 6 cfg0.N := by
  simp (disch := decide) only [outs, outsS4, outsS3, outsS2, outsS1, o2, Function.update_of_ne, Function.update_self]
theorem outs_4 (c : Dev nD) : outs m 4 main_v29 c = (dat1 (fun c b => GenP.V3 m (outs m) c b) c).arrAt 6 cfg1.N := by
  rw [Vin1_eq m]; simp (disch := decide) only [outs, outsS4, outsS3, outsS2, o4, Function.update_of_ne, Function.update_self]
theorem outs_6 (c : Dev nD) : outs m 6 main_v42 c = (dat2 (fun c b => GenP.V5 m (outs m) c b) c).arrAt 6 cfg2.N := by
  rw [Vin2_eq m]; simp (disch := decide) only [outs, outsS4, outsS3, o6, Function.update_of_ne, Function.update_self]
theorem outs_8_0 (c : Dev nD) : outs m 8 main_v44_0 c = (dat3 (fun c b => GenP.V7 m (outs m) c b) c).arrAt 4 cfg3.N := by
  rw [Vin3_eq m]; simp (disch := decide) only [outs, outsS4, o8_0, Function.update_of_ne, Function.update_self]
theorem outs_8_1 (c : Dev nD) : outs m 8 main_v44_1 c = (dat3 (fun c b => GenP.V7 m (outs m) c b) c).arrAt 5 cfg3.N := by
  rw [Vin3_eq m]; simp (disch := decide) only [outs, outsS4, o8_1, Function.update_of_ne, Function.update_self]
theorem outs_8_2 (c : Dev nD) : outs m 8 main_v44_2 c = (dat3 (fun c b => GenP.V7 m (outs m) c b) c).arrAt 6 cfg3.N := by
  rw [Vin3_eq m]; simp (disch := decide) only [outs, outsS4, o8_2, Function.update_of_ne, Function.update_self]
theorem outs_10 (c : Dev nD) : outs m 10 main_v52 c = (dat4 (fun c b => GenP.V9 m (outs m) c b) c).arrAt 9 cfg4.N := by
  rw [Vin4_eq m]; simp (disch := decide) only [outs, o10, Function.update_self]

def pdats : (p : Fin 5) → (c : Dev nD) → Dat τ (Elt F) Unit ℕ (UR sig nD τ) ℕ (cfgs p) c
  | ⟨0, _⟩ => fun c => dat0 (fun c b => GenP.V1 m c b) c
  | ⟨1, _⟩ => fun c => dat1 (fun c b => GenP.V3 m (outs m) c b) c
  | ⟨2, _⟩ => fun c => dat2 (fun c b => GenP.V5 m (outs m) c b) c
  | ⟨3, _⟩ => fun c => dat3 (fun c b => GenP.V7 m (outs m) c b) c
  | ⟨4, _⟩ => fun c => dat4 (fun c b => GenP.V9 m (outs m) c b) c

abbrev Lz : GSem nD τ sig → Finset Unit := fun _ => ∅
abbrev lvz : GSem nD τ sig → Unit → ℕ := fun _ _ => 0
abbrev Rst (c : Dev nD) : sProp 𝕄 := iprop((∃ r, prngReg c r) ∗ ∃ W, owes (c : Thread nD τ) (0 : CellTallies nD τ sig Unit) W)
abbrev Est : Fin 6 → Dev nD → sProp 𝕄 := fun _ c => Rst c

section Reg
variable (p : Fin 5) (L : Pipeline.LaunchFacts (nD := nD) (τ := τ) cfgs p) (Vi Vo : (c : Dev nD) → Valuation τ sig (Elt F))
  (hΦ : ∀ c i, (pdats m p c).Φ i = Pipeline.ΦA (cfgs p).spec c) (hq : ∀ c w, (pdats m p c).q w = fullShare)
  (hA : ∀ c w, (pdats m p c).A w = Vi c (Pipeline.arrRef (cfgs p).spec w)) (ho : ∀ c t, (pdats m p c).owed t = 0)
  (hrec : ∀ c t, (pdats m p c).recorded t = Set.univ)
  (hb : ∀ c, BodyObligation (pdats m p c) (defs₀ (F := F)) Variants.none () Set.univ)
  (hF : ∀ c w, (pdats m p c).arrAt w (cfgs p).N = Vo c (Pipeline.arrRef (cfgs p).spec w))
  (hr : ∀ c b, b ∉ Finset.univ.image (Pipeline.arrRef (cfgs p).spec) → Vo c b = Vi c b)

set_option backward.isDefEq.respectTransparency.types false in
/-- The five regions differ only in their number and the two valuations around them: one record serves all. -/
def mkReg : Pipeline.RegionSeg (pcfgs (F := F)) GenP.adm (pdats m) () defs₀ Variants.none Lz lvz p where
  win := L.win.to₀
  block_pos := L.block_pos
  stage_whole := L.stage_whole
  K := PEmpty
  osem k := k.elim
  ho := Pipeline.OwnSemFacts.none _
  hbody c := (hb c).loose
  hwaits := Pipeline.hwaits_of_owed_zero _ _ _ _ Lz lvz p ho
  pre c := iprop(StableHlo.held (c : Thread nD τ) (Pipeline.ucRefs τ sig) (Vi c) ∗ Rst c)
  post c := iprop(StableHlo.held (c : Thread nD τ) (Pipeline.ucRefs τ sig) (Vo c) ∗ Rst c)
  X c := iprop(∃ r, prngReg c r)
  Y c := iprop(∃ r, prngReg c r)
  Z c := Pipeline.unscopedRest (Ix := Unit) (Name := ℕ) (U := UR sig nD τ) (Lvl := ℕ) (cfgs p).spec c (fun b => Vi c b)
  hentry c := by
    rw [Pipeline.ownSems0_none]
    have hsplit := Pipeline.arrays_of_unscopedBufs (p := p) (pcfgs (F := F)) GenP.adm (pdats m) L.win L.arr_whole c
      ((pdats m p c).share_full (hq c)) (fun b => Vi c b) (hA c)
    rw [Pipeline.unscopedBufs_held (Ix := Unit) (Name := ℕ) (U := UR sig nD τ) (Lvl := ℕ) c (Vi c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [ho, hrec]
      icases HO with ⟨%W, HO⟩; iexists W; isplitr; · ipureintro; exact fun _ _ => Or.inl trivial
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) GenP.adm (Ix := Unit) (Name := ℕ) (U := UR sig nD τ) (Lvl := ℕ)
      L.win L.arr_whole c (pdats m) ((pdats m p c).share_full (hq c))
      (fun b => Vi c b) (fun b => Vo c b) ((pdats m p c).arrAt · (cfgs p).N) (hF c) (hr c)
    rw [Pipeline.unscopedBufs_held (Ix := Unit) (Name := ℕ) (U := UR sig nD τ) (Lvl := ℕ) c (Vo c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [ho]
    icases HO with ⟨%W, -, HO⟩; iexists W; iexact HO

variable (o : Fin (cfgs p).W) (hin : ∀ w, w ≠ o → ((cfgs p).win w).isOut = false)
  (hof : ∀ c b, b ∉ ([Pipeline.arrRef (cfgs p).spec o] : List (Ref sig .tc)) → Vo c b = Vi c b)
  (hat : ∀ c, Vo c (Pipeline.arrRef (cfgs p).spec o) = (pdats m p c).arrAt o (cfgs p).N)

set_option backward.isDefEq.respectTransparency.types false in
/-- A region with one output array: every other array of it ends as it was entered. -/
def mkReg1 := mkReg m p L Vi Vo hΦ hq hA ho hrec hb
  (fun c w => by
    by_cases h : w = o
    · subst h; exact (hat c).symm
    exact (((pdats m p c).arrAt_in w (hin w h) _).trans (hA c w)).trans
      (hof c _ fun hm => h (L.win.arr_inj (List.mem_singleton.mp hm))).symm)
  (fun c b hb' => hof c b fun h => hb' (Finset.mem_image.mpr ⟨o, Finset.mem_univ _, (List.mem_singleton.mp h).symm⟩))

end Reg

theorem V8_at_main_v44_0 (c : Dev nD) : GenP.V8 m (outs m) c main_v44_0 = outs m 8 main_v44_0 c := by
  unfold GenP.V8; rw [Function.update_of_ne (StableHlo.devRef_ne_of_ne (by decide : (main_v44_0 : Ref sig .tc) ≠ main_v44_2)), Function.update_of_ne (StableHlo.devRef_ne_of_ne (by decide : (main_v44_0 : Ref sig .tc) ≠ main_v44_1)), Function.update_self]
theorem V8_at_main_v44_1 (c : Dev nD) : GenP.V8 m (outs m) c main_v44_1 = outs m 8 main_v44_1 c := by
  unfold GenP.V8; rw [Function.update_of_ne (StableHlo.devRef_ne_of_ne (by decide : (main_v44_1 : Ref sig .tc) ≠ main_v44_2)), Function.update_self]
theorem V8_at_main_v44_2 (c : Dev nD) : GenP.V8 m (outs m) c main_v44_2 = outs m 8 main_v44_2 c := by
  unfold GenP.V8; rw [Function.update_self]
theorem isIn3 : ∀ w : Fin cfg3.W, w ≠ 4 → w ≠ 5 → w ≠ 6 → (cfg3.win w).isOut = false := by decide
theorem hF3 (c : Dev nD) (w : Fin cfg3.W) : (dat3 (fun c b => GenP.V7 m (outs m) c b) c).arrAt w cfg3.N = GenP.V8 m (outs m) c (Pipeline.arrRef spec3 w) := by
  by_cases h4 : w = 4
  · subst h4; exact (outs_8_0 m c).symm.trans (V8_at_main_v44_0 m c).symm
  by_cases h5 : w = 5
  · subst h5; exact (outs_8_1 m c).symm.trans (V8_at_main_v44_1 m c).symm
  by_cases h6 : w = 6
  · subst h6; exact (outs_8_2 m c).symm.trans (V8_at_main_v44_2 m c).symm
  have hne : Pipeline.arrRef spec3 w ∉ ([main_v44_0, main_v44_1, main_v44_2] : List (Ref sig .tc)) := fun hm => by
    simp only [List.mem_cons, List.not_mem_nil, or_false] at hm
    rcases hm with hm | hm | hm
    · exact h4 (winFacts3.arr_inj (hm.trans (rfl : main_v44_0 = Pipeline.arrRef spec3 4)))
    · exact h5 (winFacts3.arr_inj (hm.trans (rfl : main_v44_1 = Pipeline.arrRef spec3 5)))
    · exact h6 (winFacts3.arr_inj (hm.trans (rfl : main_v44_2 = Pipeline.arrRef spec3 6)))
  exact ((dat3 (fun c b => GenP.V7 m (outs m) c b) c).arrAt_in w (isIn3 w h4 h5 h6) _).trans ((A_eq3 (fun c b => GenP.V7 m (outs m) c b) c w).trans (GenP.V8_of m (outs m) c _ hne).symm)
theorem hrest3 (c : Dev nD) : ∀ b, b ∉ Finset.univ.image (Pipeline.arrRef spec3) → GenP.V8 m (outs m) c b = GenP.V7 m (outs m) c b :=
  fun b hb => GenP.V8_of m (outs m) c b fun h => by
    simp only [List.mem_cons, List.not_mem_nil, or_false] at h
    rcases h with h | h | h
    · subst h; exact hb (Finset.mem_image.mpr ⟨4, Finset.mem_univ _, rfl⟩)
    · subst h; exact hb (Finset.mem_image.mpr ⟨5, Finset.mem_univ _, rfl⟩)
    · subst h; exact hb (Finset.mem_image.mpr ⟨6, Finset.mem_univ _, rfl⟩)

set_option backward.isDefEq.respectTransparency.types false in
def reg0 := mkReg1 m 0 launch0 (GenP.V1 m) (GenP.V2 m (outs m)) (fun _ _ => rfl) (fun _ _ => rfl) (fun _ _ => rfl) (fun _ _ => rfl) (fun _ _ => rfl) (body_obligation0 fun c b => GenP.V1 m c b) 6 (by decide) (GenP.V2_of m (outs m)) fun c => (Function.update_self _ _ _).trans (outs_2 m c)
set_option backward.isDefEq.respectTransparency.types false in
def reg1 := mkReg1 m 1 launch1 (GenP.V3 m (outs m)) (GenP.V4 m (outs m)) (fun _ _ => rfl) (fun _ _ => rfl) (fun _ _ => rfl) (fun _ _ => rfl) (fun _ _ => rfl) (body_obligation1 fun c b => GenP.V3 m (outs m) c b) 6 (by decide) (GenP.V4_of m (outs m)) fun c => (Function.update_self _ _ _).trans (outs_4 m c)
set_option backward.isDefEq.respectTransparency.types false in
def reg2 := mkReg1 m 2 launch2 (GenP.V5 m (outs m)) (GenP.V6 m (outs m)) (fun _ _ => rfl) (fun _ _ => rfl) (fun _ _ => rfl) (fun _ _ => rfl) (fun _ _ => rfl) (body_obligation2 fun c b => GenP.V5 m (outs m) c b) 6 (by decide) (GenP.V6_of m (outs m)) fun c => (Function.update_self _ _ _).trans (outs_6 m c)
set_option backward.isDefEq.respectTransparency.types false in
def reg3 := mkReg m 3 launch3 (GenP.V7 m (outs m)) (GenP.V8 m (outs m)) (fun _ _ => rfl) (fun _ _ => rfl) (fun _ _ => rfl) (fun _ _ => rfl) (fun _ _ => rfl) (body_obligation3 fun c b => GenP.V7 m (outs m) c b) (hF3 m) (hrest3 m)
set_option backward.isDefEq.respectTransparency.types false in
def reg4 := mkReg1 m 4 launch4 (GenP.V9 m (outs m)) (GenP.V10 m (outs m)) (fun _ _ => rfl) (fun _ _ => rfl) (fun _ _ => rfl) (fun _ _ => rfl) (fun _ _ => rfl) (body_obligation4 fun c b => GenP.V9 m (outs m) c b) 9 (by decide) (GenP.V10_of m (outs m)) fun c => (Function.update_self _ _ _).trans (outs_10 m c)

variable (ρ : Dev nD → PrngReg)

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE5 (c : Dev nD) : Est (F := F) 5 c ⊢ (iprop(∃ W, owes (c : Thread nD τ) (0 : CellTallies nD τ sig Unit) W) : sProp 𝕄) := by
  iintro ⟨-, HO⟩; iexact HO

/-- Every argument ends as launched. -/
abbrev kept (c : Dev nD) (μ : (ℓ : Loc nD τ sig) → Buf (Elt F) ℓ) : Prop :=
  μ ((c.tc : Thread nD τ).loc main_arg0) = m ((c.tc : Thread nD τ).loc main_arg0)
  ∧ μ ((c.tc : Thread nD τ).loc main_arg1) = m ((c.tc : Thread nD τ).loc main_arg1)
  ∧ μ ((c.tc : Thread nD τ).loc main_arg2) = m ((c.tc : Thread nD τ).loc main_arg2)
  ∧ μ ((c.tc : Thread nD τ).loc main_arg3) = m ((c.tc : Thread nD τ).loc main_arg3)
  ∧ μ ((c.tc : Thread nD τ).loc main_arg4) = m ((c.tc : Thread nD τ).loc main_arg4)
  ∧ μ ((c.tc : Thread nD τ).loc main_arg5) = m ((c.tc : Thread nD τ).loc main_arg5)
  ∧ μ ((c.tc : Thread nD τ).loc main_arg6) = m ((c.tc : Thread nD τ).loc main_arg6)
  ∧ μ ((c.tc : Thread nD τ).loc main_arg7) = m ((c.tc : Thread nD τ).loc main_arg7)
  ∧ μ ((c.tc : Thread nD τ).loc main_arg8) = m ((c.tc : Thread nD τ).loc main_arg8)
  ∧ μ ((c.tc : Thread nD τ).loc main_arg9) = m ((c.tc : Thread nD τ).loc main_arg9)
  ∧ μ ((c.tc : Thread nD τ).loc main_arg10) = m ((c.tc : Thread nD τ).loc main_arg10)
  ∧ μ ((c.tc : Thread nD τ).loc main_arg11) = m ((c.tc : Thread nD τ).loc main_arg11)
  ∧ μ ((c.tc : Thread nD τ).loc main_arg12) = m ((c.tc : Thread nD τ).loc main_arg12)
  ∧ μ ((c.tc : Thread nD τ).loc main_arg13) = m ((c.tc : Thread nD τ).loc main_arg13)
  ∧ μ ((c.tc : Thread nD τ).loc main_arg14) = m ((c.tc : Thread nD τ).loc main_arg14)
  ∧ μ ((c.tc : Thread nD τ).loc main_arg15) = m ((c.tc : Thread nD τ).loc main_arg15)
  ∧ μ ((c.tc : Thread nD τ).loc main_arg16) = m ((c.tc : Thread nD τ).loc main_arg16)
  ∧ μ ((c.tc : Thread nD τ).loc main_arg17) = m ((c.tc : Thread nD τ).loc main_arg17)
  ∧ μ ((c.tc : Thread nD τ).loc main_arg18) = m ((c.tc : Thread nD τ).loc main_arg18)
  ∧ μ ((c.tc : Thread nD τ).loc main_arg19) = m ((c.tc : Thread nD τ).loc main_arg19)
  ∧ μ ((c.tc : Thread nD τ).loc main_arg20) = m ((c.tc : Thread nD τ).loc main_arg20)
  ∧ μ ((c.tc : Thread nD τ).loc main_arg21) = m ((c.tc : Thread nD τ).loc main_arg21)
  ∧ μ ((c.tc : Thread nD τ).loc main_arg22) = m ((c.tc : Thread nD τ).loc main_arg22)

set_option backward.isDefEq.respectTransparency.types false in
/-- Every weakly fair execution ends with the result buffer at what the last region leaves and every argument as launched. -/
theorem run_val : θ_run defs (onTc (τ := τ) (main (F := F))) ⟨m, fun _ => 0, ρ⟩ (fun r => ∀ c : Dev nD,
      r.2.mem ((c.tc : Thread nD τ).loc main_v52) = GenP.V10 m (outs m) c main_v52 ∧ kept m c fun ℓ => r.2.mem ℓ) := by
  refine Pipeline.θ_run_regions_kit_dev (pcfgs (F := F)) GenP.adm (pdats m) () cellOf_inj emb₁ defs₀ Variants.none Lz lvz m ρ main
    (GenP.segs m (outs m) Variants.none Lz lvz Est () (pdats m) (reg0 m) (reg1 m) (reg2 m) (reg3 m) (reg4 m))
    (fun c Q => by
      rewrite [main_chain c, Pipeline.Seg.run_eq_chain,
        show (GenP.segs m (outs m) Variants.none Lz lvz Est () (pdats m) (reg0 m) (reg1 m) (reg2 m) (reg3 m) (reg4 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (fun c => by simp only [GenP.segs, Pipeline.Seg.pipes_host, Pipeline.Seg.pipes_region, Pipeline.Seg.pipes_nil]; decide)
    0 (fun _ _ => rfl) (fun _ => iprop(emp)) (initOf (Pipeline.cells cfgs cellOf_inj) (Pipeline.launchToks cfgs cellOf_inj)) hu₀
    (T₀ := fun c => iprop(StableHlo.held (c : Thread nD τ) (Pipeline.ucRefs τ sig) (GenP.V0 m c) ∗ Est 0 c))
    (Tₙ := fun c => StableHlo.held (c : Thread nD τ) (Pipeline.ucRefs τ sig) (GenP.V10 m (outs m) c))
    (hch := fun c => ⟨.rfl, .rfl, .rfl, .rfl, .rfl, .rfl, .rfl, .rfl, .rfl, .rfl, sep_mono .rfl (hE5 c)⟩)
    (hinit := ?_)
    (QY := fun c s => s.mem ((c.tc : Thread nD τ).loc main_v52) = GenP.V10 m (outs m) c main_v52 ∧ kept m c fun ℓ => s.mem ℓ)
    (hfin := fun c s' => ?_) (hQ := fun _ h => h)
  · -- the launch: the unscoped buffers are held at the launch contents; the generator register and the `owes` make the rest
    refine Pipeline.initEach Lz lvz fun c => ?_
    rw [show unscopedBufs c (fun b => m ((c : Thread nD τ).loc b)) = StableHlo.held (c : Thread nD τ) (Pipeline.ucRefs τ sig) (GenP.V0 m c)
      from Pipeline.unscopedBufs_held c (GenP.V0 m c)]
    iintro ⟨⟨Hh, -, HO, -, Hp, -⟩, -⟩
    imodintro
    isplitl [Hh]; · iexact Hh
    isplitl [Hp]; · iexists _; iexact Hp
    iexists ∅; iexact HO
  · -- the end: the result buffer and each argument's buffer read off the last valuation
    unfold StableHlo.held
    iintro ⟨Hh, HSI⟩
    ihave Hr := (pointsTo_read_all (Pipeline.ucRefs τ sig) (fun b => ((c : Thread nD τ).1, b)) (GenP.V10 m (outs m) c) s') $$ [Hh HSI]
    · isplitl [Hh] <;> iassumption
    icases Hr with ⟨%h, HSI⟩
    imodintro
    isplitr
    · ipureintro
      have hk := fun (b : Ref sig .tc) hb => h (Proc.devRef .tc b) (Finset.mem_filter.mpr ⟨StableHlo.devRef_mem_tcRefs b, hb⟩)
      have ha := fun (b : Ref sig .tc) hb hw => (hk b hb).trans (GenP.V10_kept m (outs m) c b hw)
      exact ⟨hk main_v52 (by decide),
        ha main_arg0 (by decide) (by decide),
        ha main_arg1 (by decide) (by decide),
        ha main_arg2 (by decide) (by decide),
        ha main_arg3 (by decide) (by decide),
        ha main_arg4 (by decide) (by decide),
        ha main_arg5 (by decide) (by decide),
        ha main_arg6 (by decide) (by decide),
        ha main_arg7 (by decide) (by decide),
        ha main_arg8 (by decide) (by decide),
        ha main_arg9 (by decide) (by decide),
        ha main_arg10 (by decide) (by decide),
        ha main_arg11 (by decide) (by decide),
        ha main_arg12 (by decide) (by decide),
        ha main_arg13 (by decide) (by decide),
        ha main_arg14 (by decide) (by decide),
        ha main_arg15 (by decide) (by decide),
        ha main_arg16 (by decide) (by decide),
        ha main_arg17 (by decide) (by decide),
        ha main_arg18 (by decide) (by decide),
        ha main_arg19 (by decide) (by decide),
        ha main_arg20 (by decide) (by decide),
        ha main_arg21 (by decide) (by decide),
        ha main_arg22 (by decide) (by decide)⟩
    · iexact HSI

end Cert.KernelIdeal.Hand

end
-- ==== Proof.LibPlainDot.lean ====
import Idealize.ShloMosaic.Lib.StackMember

noncomputable section

namespace Cert.Lib.PlainDot

open Idealize.ShloMosaic Idealize.ShloMosaic.ValueIdx

variable {M K N : Nat}

theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (congrFun (matmul_zero_eq_dotGeneral _ prec lhs rhs) _).trans (StackMember.dotGeneral_plain_apply prec lhs rhs p q)

theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) :=
  (Ideal.dotGeneral_apply _ prec sched lhs rhs _).trans
    ((Ideal.dotGeneral_apply _ prec _ lhs rhs _).symm.trans (StackMember.dotGeneral_plain_apply prec lhs rhs p q))

end Cert.Lib.PlainDot

end
-- ==== Proof.Value.Spec.lean ====
import Idealize.ShloMosaic.Lib.ValueIdx
import Idealize.ShloMosaic.PureOps.Ideal.Laws

noncomputable section

namespace Cert.Spec

open Idealize.ShloMosaic Idealize.ShloMosaic.ValueIdx

abbrev Mat (a b : Nat) := (⟨2, ![a, b]⟩ : Shape).Idx → EReal

abbrev IMat (a b : Nat) := (⟨2, ![a, b]⟩ : Shape).Idx → BitVec 32

def hidden {D : Nat} (h agg : Mat 100000 D) (w1 : Mat D 128) (b1 : Mat 1 128) (n : Fin 100000) (k : Fin 128) : EReal :=
  max ((∑ d : Fin D, (h (ix2 n d) + agg (ix2 n d)) * w1 (ix2 d k)) + b1 (ix2 0 k)) 0

def layer {D : Nat} (h agg : Mat 100000 D) (w1 : Mat D 128) (b1 : Mat 1 128) (w2 : Mat 128 128) (b2 : Mat 1 128) :
    Mat 100000 128 :=
  fun i => max ((∑ k : Fin 128, hidden h agg w1 b1 (i 0) k * w2 (ix2 k (i 1))) + b2 (ix2 0 (i 1))) 0

def pool (h : Mat 100000 128) (batch : IMat 100000 1) : Mat 1024 128 :=
  fun i => ∑ n : Fin 100000, if batch (ix2 n 0) = BitVec.ofNat 32 (i 0).val then h (ix2 n (i 1)) else 0

def clfHidden (g : Mat 1024 384) (w1 : Mat 384 256) (b1 gam bet mean var : Mat 1 256) (eps : EReal)
    (r : Fin 1024) (k : Fin 256) : EReal :=
  max ((((∑ d : Fin 384, g (ix2 r d) * w1 (ix2 d k)) + b1 (ix2 0 k) - mean (ix2 0 k))
      * Ideal.rsqrt (var (ix2 0 k) + eps)) * gam (ix2 0 k) + bet (ix2 0 k)) 0

def clf (g : Mat 1024 384) (w1 : Mat 384 256) (b1 gam bet mean var : Mat 1 256) (eps : EReal) (w2 : Mat 256 2)
    (b2 : Mat 1 2) : Mat 1024 2 :=
  fun i => (∑ k : Fin 256, clfHidden g w1 b1 gam bet mean var eps (i 0) k * w2 (ix2 k (i 1))) + b2 (ix2 0 (i 1))

def cat3 (a b c : Mat 1024 128) : Mat 1024 384 :=
  fun i => if (i 1).val < 128 then a (ix2 (i 0) ⟨(i 1).val % 128, Nat.mod_lt _ (by decide)⟩)
    else if (i 1).val < 256 then b (ix2 (i 0) ⟨((i 1).val - 128) % 128, Nat.mod_lt _ (by decide)⟩)
    else c (ix2 (i 0) ⟨((i 1).val - 256) % 128, Nat.mod_lt _ (by decide)⟩)

end Cert.Spec

end
-- ==== Proof.Value.LayerLib.lean ====
import proofs.«429475_j15058155340592_1_alg».proof.Proof.LibPlainDot
import proofs.«429475_j15058155340592_1_alg».proof.Proof.Value.Spec
import Idealize.ShloMosaic.Lib.ValueLayout

noncomputable section

namespace Cert.Lib.Layer

open Idealize.ShloMosaic Idealize.ShloMosaic.ValueIdx Idealize.SL.Sem

theorem hz : (![0, 0] : Fin 2 → Nat) = fun _ => 0 := funext fun a => by fin_cases a <;> rfl

variable {M D N : Nat}

-- A matrix product plus a row, clipped at zero, at an entry: narrowing the operands is the identity on the extended reals.
theorem affine_clip (a : FVec Ideal ⟨2, ![M, D]⟩ .f32) (w : FVec Ideal ⟨2, ![D, N]⟩ .f32) (b : FVec Ideal ⟨2, ![1, N]⟩ .f32)
    (hb : FTy.bits .bf16 < FTy.bits .f32) (h : (⟨2, ![1, N]⟩ : Shape).Broadcasts ⟨2, ![M, N]⟩) (p : Fin M) (q : Fin N) :
    maximumf (addf (FloatOps.matmul (DotDims.plain M D N) none (truncf .bf16 a hb) (truncf .bf16 w hb)
          (constant (F := Ideal) ⟨2, ![M, N]⟩ .f32 0x00000000#32)) (broadcastTo ⟨2, ![M, N]⟩ b h))
      (broadcast ⟨2, ![M, N]⟩ (FloatOps.ofBits (F := Ideal) .f32 0x00000000#32)) (ix2 p q)
      = max ((∑ k : Fin D, a (ix2 p k) * w (ix2 k q)) + b (ix2 0 q)) 0 := by
  rw [maximumf_apply, addf_apply, broadcast_apply, Cert.Lib.PlainDot.matmul_zero_apply, broadcastTo_1b_ab_apply]
  show max _ (Ideal.ofBits .f32 0x00000000#32) = _
  rw [Ideal.ofBits_zero_f32]
  rfl

-- Two such maps of the sum of two row blocks give the layer at the node whose rows the blocks hold.
theorem body_layer (x0 x1 : FVec Ideal ⟨2, ![M, D]⟩ .f32) (w1 : FVec Ideal ⟨2, ![D, 128]⟩ .f32) (b1 : FVec Ideal ⟨2, ![1, 128]⟩ .f32)
    (w2 : FVec Ideal ⟨2, ![128, 128]⟩ .f32) (b2 : FVec Ideal ⟨2, ![1, 128]⟩ .f32)
    (hb : FTy.bits .bf16 < FTy.bits .f32) (h : (⟨2, ![1, 128]⟩ : Shape).Broadcasts ⟨2, ![M, 128]⟩)
    (A0 A1 : Spec.Mat 100000 D) (p : Fin M) (q : Fin 128) (n : Fin 100000)
    (h0 : ∀ d, x0 (ix2 p d) = A0 (ix2 n d)) (h1 : ∀ d, x1 (ix2 p d) = A1 (ix2 n d)) :
    maximumf (addf (FloatOps.matmul (DotDims.plain M 128 128) none
          (truncf .bf16 (maximumf (addf (FloatOps.matmul (DotDims.plain M D 128) none (truncf .bf16 (addf x0 x1) hb)
                (truncf .bf16 w1 hb) (constant (F := Ideal) ⟨2, ![M, 128]⟩ .f32 0x00000000#32)) (broadcastTo ⟨2, ![M, 128]⟩ b1 h))
              (broadcast ⟨2, ![M, 128]⟩ (FloatOps.ofBits (F := Ideal) .f32 0x00000000#32))) hb)
          (truncf .bf16 w2 hb) (constant (F := Ideal) ⟨2, ![M, 128]⟩ .f32 0x00000000#32)) (broadcastTo ⟨2, ![M, 128]⟩ b2 h))
      (broadcast ⟨2, ![M, 128]⟩ (FloatOps.ofBits (F := Ideal) .f32 0x00000000#32)) (ix2 p q)
      = Spec.layer A0 A1 w1 b1 w2 b2 (ix2 n q) := by
  rw [affine_clip]
  simp only [affine_clip, addf_apply, h0, h1]
  rfl

-- A rectangle of a whole array read at an entry is the array read where the rectangle puts the entry.
theorem read_blk {sig : RefSig} {κ : Kind} {Val : EltTy → Type} (b : Ref sig κ) (r : Rect b.ty.shape) (f : b.ty.Contents Val)
    (x : r.shape.Idx) (k : b.ty.shape.Idx) (h : ∀ a, (k a).val = (r.emb x a).val) :
    ((View.whole b).slice r).read Val f x = f k :=
  congrArg f (funext fun a => Fin.ext (h a).symm)

-- A rectangle at offset zero of the array's own sizes reads the whole array.
theorem read_full {sig : RefSig} {κ : Kind} {Val : EltTy → Type} (b : Ref sig κ) (off : Fin b.ty.shape.rank → Nat)
    (inb : ∀ a, off a + b.ty.shape.size a ≤ b.ty.shape.size a) (f : b.ty.Contents Val) (h : ∀ a, off a = 0) :
    ((View.whole b).slice (Rect.unit off b.ty.shape.size inb)).read Val f = f :=
  funext fun x => read_blk b _ f x x fun a => by show (x a).val = off a + 1 * (x a).val; rw [h a]; omega

end Cert.Lib.Layer

end
-- ==== Proof.Value.L0.lean ====
import proofs.«429475_j15058155340592_1_alg».proof.Proof.KernelIdeal.R0
import proofs.«429475_j15058155340592_1_alg».proof.Proof.Value.LayerLib
import Idealize.ShloMosaic.Lib.Pipeline.Value

noncomputable section

namespace Cert.KernelIdeal.Val

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat)
open Cert.Lib.Layer

variable (V : (c : Dev nD) → (b : Ref sig .tc) → Buf (Elt Ideal) ((c : Thread nD τ).loc b))

theorem idx_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (∀ a : Fin 2, win0_2.index t a * win0_2.size a = 0) ∧ (∀ a : Fin 2, win0_3.index t a * win0_3.size a = 0)
    ∧ (∀ a : Fin 2, win0_4.index t a * win0_4.size a = 0) ∧ (∀ a : Fin 2, win0_5.index t a * win0_5.size a = 0)
    ∧ win0_6.index t (0 : Fin 2) = t.val ∧ win0_6.index t (1 : Fin 2) = 0 :=
  (by decide +kernel : ∀ t : Fin grid0.N, _)

theorem flushed0_eq (c : Dev nD) (t : Fin cfg0.N) :
    (Hand.dat0 (F := Ideal) V c).flushed 6 t = ((cfg0.win 6).blk t).view.read (Elt Ideal)
      (Spec.layer (V c main_arg0) (V c main_v13) (V c main_arg3) (V c main_v14) (V c main_arg5) (V c main_v15) : Spec.Mat 100000 128) := by
  show (cfg0.win 6).cut (grid0.coords t) ((Hand.dat0 V c).after 6 t) = _
  rw [Hand.after0_6]
  unfold Hand.out0_6
  rw [View.canon_unit_zero hz]
  simp only [View.ld_unit_zero (S := S2000x7) hz, View.ld_unit_zero (S := S7x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  have ht : t.val < 50 := (N_0 : cfg0.N = 50) ▸ t.isLt
  have hn : 2000 * t.val + p.val < 100000 := by have := p.isLt; omega
  obtain ⟨⟨a0, a1⟩, ⟨b0, b1⟩, z2, z3, z4, z5, e0, e1⟩ := idx_facts0 t
  have he : (((cfg0.win 6).blk t).view.emb (ix2 p q) : S100000x128.Idx) = ix2 ⟨2000 * t.val + p.val, hn⟩ q :=
    funext fun a => Fin.ext (match a with
      | ⟨0, _⟩ => by show win0_6.index t (0 : Fin 2) * 2000 + 1 * p.val = 2000 * t.val + p.val; rw [e0]; omega
      | ⟨1, _⟩ => by show win0_6.index t (1 : Fin 2) * 128 + 1 * q.val = q.val; rw [e1]; omega)
  show k0_pay1 (F := Ideal) _ _ _ _ _ _ (ix2 p q) = Spec.layer _ _ _ _ _ _ (((cfg0.win 6).blk t).view.emb (ix2 p q))
  rw [he, show Hand.iblk0 V c 2 t = V c main_arg3 from read_full main_arg3 _ _ (V c main_arg3) z2,
    show Hand.iblk0 V c 3 t = V c main_v14 from read_full main_v14 _ _ (V c main_v14) z3,
    show Hand.iblk0 V c 4 t = V c main_arg5 from read_full main_arg5 _ _ (V c main_arg5) z4,
    show Hand.iblk0 V c 5 t = V c main_v15 from read_full main_v15 _ _ (V c main_v15) z5]
  unfold k0_pay1
  simp only [shapeCast_self]
  exact body_layer _ _ _ _ _ _ _ _ (V c main_arg0) (V c main_v13) p q ⟨2000 * t.val + p.val, hn⟩
    (fun d => read_blk main_arg0 (win0_0.rect t) (V c main_arg0) (ix2 p d) _ fun (a : Fin 2) => match a with
      | ⟨0, _⟩ => by show 2000 * t.val + p.val = win0_0.index t (0 : Fin 2) * 2000 + 1 * p.val; rw [a0]; omega
      | ⟨1, _⟩ => by show d.val = win0_0.index t (1 : Fin 2) * 7 + 1 * d.val; rw [a1]; omega)
    (fun d => read_blk main_v13 (win0_1.rect t) (V c main_v13) (ix2 p d) _ fun (a : Fin 2) => match a with
      | ⟨0, _⟩ => by show 2000 * t.val + p.val = win0_1.index t (0 : Fin 2) * 2000 + 1 * p.val; rw [b0]; omega
      | ⟨1, _⟩ => by show d.val = win0_1.index t (1 : Fin 2) * 7 + 1 * d.val; rw [b1]; omega)

theorem cover0 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  obtain ⟨T, hT⟩ : ∃ T : Fin cfg0.N, T.val = (i 0).val / 2000 :=
    ⟨⟨_, by rw [show cfg0.N = 50 from N_0]; omega⟩, rfl⟩
  obtain ⟨-, -, -, -, -, -, e0, e1⟩ := idx_facts0 T
  refine ⟨T, flush0_6 T, ?_⟩
  show i ∈ ((View.whole main_v16).slice (win0_6.rect T)).set
  rw [View.set_slice_whole, Rect.mem_set_unit]
  intro a
  match a with
  | ⟨0, _⟩ =>
    show win0_6.index T (0 : Fin 2) * 2000 ≤ (i 0).val ∧ (i 0).val < win0_6.index T (0 : Fin 2) * 2000 + 2000
    rw [e0, hT]; omega
  | ⟨1, _⟩ =>
    show win0_6.index T (1 : Fin 2) * 128 ≤ (i 1).val ∧ (i 1).val < win0_6.index T (1 : Fin 2) * 128 + 128
    rw [e1]; omega

theorem final0 (c : Dev nD) :
    ((Hand.dat0 (F := Ideal) V c).arrAt 6 cfg0.N : Spec.Mat 100000 128)
      = Spec.layer (V c main_arg0) (V c main_v13) (V c main_arg3) (V c main_v14) (V c main_arg5) (V c main_v15) :=
  (Hand.dat0 (F := Ideal) V c).arrAt_eq_of_cover 6 _ (fun t _ => flushed0_eq V c t) cover0

end Cert.KernelIdeal.Val

end
-- ==== Proof.Value.L1.lean ====
import proofs.«429475_j15058155340592_1_alg».proof.Proof.KernelIdeal.R1
import proofs.«429475_j15058155340592_1_alg».proof.Proof.Value.LayerLib
import Idealize.ShloMosaic.Lib.Pipeline.Value

noncomputable section

namespace Cert.KernelIdeal.Val

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat)
open Cert.Lib.Layer

variable (V : (c : Dev nD) → (b : Ref sig .tc) → Buf (Elt Ideal) ((c : Thread nD τ).loc b))

theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (∀ a : Fin 2, win1_2.index t a * win1_2.size a = 0) ∧ (∀ a : Fin 2, win1_3.index t a * win1_3.size a = 0)
    ∧ (∀ a : Fin 2, win1_4.index t a * win1_4.size a = 0) ∧ (∀ a : Fin 2, win1_5.index t a * win1_5.size a = 0)
    ∧ win1_6.index t (0 : Fin 2) = t.val ∧ win1_6.index t (1 : Fin 2) = 0 :=
  (by decide +kernel : ∀ t : Fin grid1.N, _)

theorem flushed1_eq (c : Dev nD) (t : Fin cfg1.N) :
    (Hand.dat1 (F := Ideal) V c).flushed 6 t = ((cfg1.win 6).blk t).view.read (Elt Ideal)
      (Spec.layer (V c main_v16) (V c main_v26) (V c main_arg7) (V c main_v27) (V c main_arg9) (V c main_v28) : Spec.Mat 100000 128) := by
  show (cfg1.win 6).cut (grid1.coords t) ((Hand.dat1 V c).after 6 t) = _
  rw [Hand.after1_6]
  unfold Hand.out1_6
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  have ht : t.val < 50 := (N_1 : cfg1.N = 50) ▸ t.isLt
  have hn : 2000 * t.val + p.val < 100000 := by have := p.isLt; omega
  obtain ⟨⟨a0, a1⟩, ⟨b0, b1⟩, z2, z3, z4, z5, e0, e1⟩ := idx_facts1 t
  have he : (((cfg1.win 6).blk t).view.emb (ix2 p q) : S100000x128.Idx) = ix2 ⟨2000 * t.val + p.val, hn⟩ q :=
    funext fun a => Fin.ext (match a with
      | ⟨0, _⟩ => by show win1_6.index t (0 : Fin 2) * 2000 + 1 * p.val = 2000 * t.val + p.val; rw [e0]; omega
      | ⟨1, _⟩ => by show win1_6.index t (1 : Fin 2) * 128 + 1 * q.val = q.val; rw [e1]; omega)
  show k1_pay1 (F := Ideal) _ _ _ _ _ _ (ix2 p q) = Spec.layer _ _ _ _ _ _ (((cfg1.win 6).blk t).view.emb (ix2 p q))
  rw [he, show Hand.iblk1 V c 2 t = V c main_arg7 from read_full main_arg7 _ _ (V c main_arg7) z2,
    show Hand.iblk1 V c 3 t = V c main_v27 from read_full main_v27 _ _ (V c main_v27) z3,
    show Hand.iblk1 V c 4 t = V c main_arg9 from read_full main_arg9 _ _ (V c main_arg9) z4,
    show Hand.iblk1 V c 5 t = V c main_v28 from read_full main_v28 _ _ (V c main_v28) z5]
  unfold k1_pay1
  simp only [shapeCast_self]
  exact body_layer _ _ _ _ _ _ _ _ (V c main_v16) (V c main_v26) p q ⟨2000 * t.val + p.val, hn⟩
    (fun d => read_blk main_v16 (win1_0.rect t) (V c main_v16) (ix2 p d) _ fun (a : Fin 2) => match a with
      | ⟨0, _⟩ => by show 2000 * t.val + p.val = win1_0.index t (0 : Fin 2) * 2000 + 1 * p.val; rw [a0]; omega
      | ⟨1, _⟩ => by show d.val = win1_0.index t (1 : Fin 2) * 128 + 1 * d.val; rw [a1]; omega)
    (fun d => read_blk main_v26 (win1_1.rect t) (V c main_v26) (ix2 p d) _ fun (a : Fin 2) => match a with
      | ⟨0, _⟩ => by show 2000 * t.val + p.val = win1_1.index t (0 : Fin 2) * 2000 + 1 * p.val; rw [b0]; omega
      | ⟨1, _⟩ => by show d.val = win1_1.index t (1 : Fin 2) * 128 + 1 * d.val; rw [b1]; omega)

theorem cover1 (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  obtain ⟨T, hT⟩ : ∃ T : Fin cfg1.N, T.val = (i 0).val / 2000 :=
    ⟨⟨_, by rw [show cfg1.N = 50 from N_1]; omega⟩, rfl⟩
  obtain ⟨-, -, -, -, -, -, e0, e1⟩ := idx_facts1 T
  refine ⟨T, flush1_6 T, ?_⟩
  show i ∈ ((View.whole main_v29).slice (win1_6.rect T)).set
  rw [View.set_slice_whole, Rect.mem_set_unit]
  intro a
  match a with
  | ⟨0, _⟩ =>
    show win1_6.index T (0 : Fin 2) * 2000 ≤ (i 0).val ∧ (i 0).val < win1_6.index T (0 : Fin 2) * 2000 + 2000
    rw [e0, hT]; omega
  | ⟨1, _⟩ =>
    show win1_6.index T (1 : Fin 2) * 128 ≤ (i 1).val ∧ (i 1).val < win1_6.index T (1 : Fin 2) * 128 + 128
    rw [e1]; omega

theorem final1 (c : Dev nD) :
    ((Hand.dat1 (F := Ideal) V c).arrAt 6 cfg1.N : Spec.Mat 100000 128)
      = Spec.layer (V c main_v16) (V c main_v26) (V c main_arg7) (V c main_v27) (V c main_arg9) (V c main_v28) :=
  (Hand.dat1 (F := Ideal) V c).arrAt_eq_of_cover 6 _ (fun t _ => flushed1_eq V c t) cover1

end Cert.KernelIdeal.Val

end
-- ==== Proof.Value.L2.lean ====
import proofs.«429475_j15058155340592_1_alg».proof.Proof.KernelIdeal.R2
import proofs.«429475_j15058155340592_1_alg».proof.Proof.Value.LayerLib
import Idealize.ShloMosaic.Lib.Pipeline.Value

noncomputable section

namespace Cert.KernelIdeal.Val

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat)
open Cert.Lib.Layer

variable (V : (c : Dev nD) → (b : Ref sig .tc) → Buf (Elt Ideal) ((c : Thread nD τ).loc b))

theorem idx_facts2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (∀ a : Fin 2, win2_2.index t a * win2_2.size a = 0) ∧ (∀ a : Fin 2, win2_3.index t a * win2_3.size a = 0)
    ∧ (∀ a : Fin 2, win2_4.index t a * win2_4.size a = 0) ∧ (∀ a : Fin 2, win2_5.index t a * win2_5.size a = 0)
    ∧ win2_6.index t (0 : Fin 2) = t.val ∧ win2_6.index t (1 : Fin 2) = 0 :=
  (by decide +kernel : ∀ t : Fin grid2.N, _)

theorem flushed2_eq (c : Dev nD) (t : Fin cfg2.N) :
    (Hand.dat2 (F := Ideal) V c).flushed 6 t = ((cfg2.win 6).blk t).view.read (Elt Ideal)
      (Spec.layer (V c main_v29) (V c main_v39) (V c main_arg11) (V c main_v40) (V c main_arg13) (V c main_v41) : Spec.Mat 100000 128) := by
  show (cfg2.win 6).cut (grid2.coords t) ((Hand.dat2 V c).after 6 t) = _
  rw [Hand.after2_6]
  unfold Hand.out2_6
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  have ht : t.val < 50 := (N_2 : cfg2.N = 50) ▸ t.isLt
  have hn : 2000 * t.val + p.val < 100000 := by have := p.isLt; omega
  obtain ⟨⟨a0, a1⟩, ⟨b0, b1⟩, z2, z3, z4, z5, e0, e1⟩ := idx_facts2 t
  have he : (((cfg2.win 6).blk t).view.emb (ix2 p q) : S100000x128.Idx) = ix2 ⟨2000 * t.val + p.val, hn⟩ q :=
    funext fun a => Fin.ext (match a with
      | ⟨0, _⟩ => by show win2_6.index t (0 : Fin 2) * 2000 + 1 * p.val = 2000 * t.val + p.val; rw [e0]; omega
      | ⟨1, _⟩ => by show win2_6.index t (1 : Fin 2) * 128 + 1 * q.val = q.val; rw [e1]; omega)
  show k2_pay1 (F := Ideal) _ _ _ _ _ _ (ix2 p q) = Spec.layer _ _ _ _ _ _ (((cfg2.win 6).blk t).view.emb (ix2 p q))
  rw [he, show Hand.iblk2 V c 2 t = V c main_arg11 from read_full main_arg11 _ _ (V c main_arg11) z2,
    show Hand.iblk2 V c 3 t = V c main_v40 from read_full main_v40 _ _ (V c main_v40) z3,
    show Hand.iblk2 V c 4 t = V c main_arg13 from read_full main_arg13 _ _ (V c main_arg13) z4,
    show Hand.iblk2 V c 5 t = V c main_v41 from read_full main_v41 _ _ (V c main_v41) z5]
  unfold k2_pay1
  simp only [shapeCast_self]
  exact body_layer _ _ _ _ _ _ _ _ (V c main_v29) (V c main_v39) p q ⟨2000 * t.val + p.val, hn⟩
    (fun d => read_blk main_v29 (win2_0.rect t) (V c main_v29) (ix2 p d) _ fun (a : Fin 2) => match a with
      | ⟨0, _⟩ => by show 2000 * t.val + p.val = win2_0.index t (0 : Fin 2) * 2000 + 1 * p.val; rw [a0]; omega
      | ⟨1, _⟩ => by show d.val = win2_0.index t (1 : Fin 2) * 128 + 1 * d.val; rw [a1]; omega)
    (fun d => read_blk main_v39 (win2_1.rect t) (V c main_v39) (ix2 p d) _ fun (a : Fin 2) => match a with
      | ⟨0, _⟩ => by show 2000 * t.val + p.val = win2_1.index t (0 : Fin 2) * 2000 + 1 * p.val; rw [b0]; omega
      | ⟨1, _⟩ => by show d.val = win2_1.index t (1 : Fin 2) * 128 + 1 * d.val; rw [b1]; omega)

theorem cover2 (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  obtain ⟨T, hT⟩ : ∃ T : Fin cfg2.N, T.val = (i 0).val / 2000 :=
    ⟨⟨_, by rw [show cfg2.N = 50 from N_2]; omega⟩, rfl⟩
  obtain ⟨-, -, -, -, -, -, e0, e1⟩ := idx_facts2 T
  refine ⟨T, flush2_6 T, ?_⟩
  show i ∈ ((View.whole main_v42).slice (win2_6.rect T)).set
  rw [View.set_slice_whole, Rect.mem_set_unit]
  intro a
  match a with
  | ⟨0, _⟩ =>
    show win2_6.index T (0 : Fin 2) * 2000 ≤ (i 0).val ∧ (i 0).val < win2_6.index T (0 : Fin 2) * 2000 + 2000
    rw [e0, hT]; omega
  | ⟨1, _⟩ =>
    show win2_6.index T (1 : Fin 2) * 128 ≤ (i 1).val ∧ (i 1).val < win2_6.index T (1 : Fin 2) * 128 + 128
    rw [e1]; omega

theorem final2 (c : Dev nD) :
    ((Hand.dat2 (F := Ideal) V c).arrAt 6 cfg2.N : Spec.Mat 100000 128)
      = Spec.layer (V c main_v29) (V c main_v39) (V c main_arg11) (V c main_v40) (V c main_arg13) (V c main_v41) :=
  (Hand.dat2 (F := Ideal) V c).arrAt_eq_of_cover 6 _ (fun t _ => flushed2_eq V c t) cover2

end Cert.KernelIdeal.Val

end
-- ==== Proof.KernelIdeal.R3Pieces.lean ====
import proofs.«429475_j15058155340592_1_alg».proof.Proof.KernelIdeal.R3
import proofs.«429475_j15058155340592_1_alg».proof.Proof.Gen.KernelIdeal.Skeleton
import proofs.«429475_j15058155340592_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz3 : (![0, 0] : Fin 2 → Nat) = fun _ => 0 := funext fun a => by fin_cases a <;> rfl

section
variable (c : Dev nD) (i : grid3.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x1 .i32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole)

section
variable (hc0 : cond3_0 i) (x0 : Vec F S2000x128 .f32) (x1 : Vec F S2000x128 .f32) (x2 : Vec F S2000x128 .f32) (x3 : Vec F S2000x1 .i32)

theorem out3_A_4_eq : out3_A_4 c i arg1 harg1 arg2 harg2 arg3 harg3 arg4 harg4 arg5 harg5 arg6 harg6 arg7 harg7 hc0 x0 x1 x2 x3 = k3_pay7 x3 x0 k3_pay2 := by
  unfold out3_A_4
  unfold kernelRun3_A
  dsimp only
  sl_unfold_words
  rw [View.canon_cons_unit_zero (S := S1024x128) hz3, View.readCov_unit_zero (S := S1024x128) _ hz3]
  simp only [View.readAt_eq_ld, harg1.read_unread, harg4.read_unread, View.ld_unit_zero (S := S2000x1) hz3, View.ld_unit_zero (S := S2000x128) hz3, View.ld_unit_zero (S := S1024x128) hz3]

theorem out3_A_5_eq : out3_A_5 c i arg1 harg1 arg2 harg2 arg3 harg3 arg4 harg4 arg5 harg5 arg6 harg6 arg7 harg7 hc0 x0 x1 x2 x3 = k3_pay8 x3 x1 k3_pay3 := by
  unfold out3_A_5
  unfold kernelRun3_A
  dsimp only
  sl_unfold_words
  rw [View.canon_cons_unit_zero (S := S1024x128) hz3, View.readCov_unit_zero (S := S1024x128) _ hz3]
  simp only [View.readAt_eq_ld, harg2.read_unread, harg4.read_unread, View.ld_unit_zero (S := S2000x1) hz3, View.ld_unit_zero (S := S2000x128) hz3, View.ld_unit_zero (S := S1024x128) hz3]

theorem out3_A_6_eq : out3_A_6 c i arg1 harg1 arg2 harg2 arg3 harg3 arg4 harg4 arg5 harg5 arg6 harg6 arg7 harg7 hc0 x0 x1 x2 x3 = k3_pay1 (k3_pay5 x3) (k3_pay6 x2) (k3_pay9 k3_pay4) (constant S1024x128 .f32 0x00000000#32) := by
  unfold out3_A_6
  unfold kernelRun3_A
  dsimp only
  sl_unfold_words
  rw [View.canon_cons_unit_zero (S := S1024x128) hz3, View.readCov_unit_zero (S := S1024x128) _ hz3]
  simp only [View.readAt_eq_ld, harg3.read_unread, harg4.read_unread, View.ld_unit_zero (S := S2000x1) hz3, View.ld_unit_zero (S := S2000x128) hz3, View.ld_unit_zero (S := S1024x128) hz3]
end

section
variable (hc0 : ¬cond3_0 i) (x0 : Vec F S2000x128 .f32) (x1 : Vec F S2000x128 .f32) (x2 : Vec F S2000x128 .f32) (x3 : Vec F S2000x1 .i32) (xo4 : Vec F S1024x128 .f32) (xo5 : Vec F S1024x128 .f32) (xo6 : Vec F S1024x128 .f32)

theorem out3_B_4_eq : out3_B_4 c i arg1 harg1 arg2 harg2 arg3 harg3 arg4 harg4 arg5 harg5 arg6 harg6 arg7 harg7 hc0 x0 x1 x2 x3 xo4 xo5 xo6 = k3_pay7 x3 x0 xo4 := by
  unfold out3_B_4
  unfold kernelRun3_B
  dsimp only
  sl_unfold_words
  rw [View.canon_unit_zero hz3]
  simp only [View.readAt_eq_ld, harg1.read_unread, harg4.read_unread, harg5.read_unread, View.ld_unit_zero (S := S2000x1) hz3, View.ld_unit_zero (S := S2000x128) hz3, View.ld_unit_zero (S := S1024x128) hz3]

theorem out3_B_5_eq : out3_B_5 c i arg1 harg1 arg2 harg2 arg3 harg3 arg4 harg4 arg5 harg5 arg6 harg6 arg7 harg7 hc0 x0 x1 x2 x3 xo4 xo5 xo6 = k3_pay8 x3 x1 xo5 := by
  unfold out3_B_5
  unfold kernelRun3_B
  dsimp only
  sl_unfold_words
  rw [View.canon_unit_zero hz3]
  simp only [View.readAt_eq_ld, harg2.read_unread, harg4.read_unread, harg6.read_unread, View.ld_unit_zero (S := S2000x1) hz3, View.ld_unit_zero (S := S2000x128) hz3, View.ld_unit_zero (S := S1024x128) hz3]

theorem out3_B_6_eq : out3_B_6 c i arg1 harg1 arg2 harg2 arg3 harg3 arg4 harg4 arg5 harg5 arg6 harg6 arg7 harg7 hc0 x0 x1 x2 x3 xo4 xo5 xo6 = k3_pay1 (k3_pay5 x3) (k3_pay6 x2) (k3_pay9 xo6) (constant S1024x128 .f32 0x00000000#32) := by
  unfold out3_B_6
  unfold kernelRun3_B
  dsimp only
  sl_unfold_words
  rw [View.canon_unit_zero hz3]
  simp only [View.readAt_eq_ld, harg3.read_unread, harg4.read_unread, harg7.read_unread, View.ld_unit_zero (S := S2000x1) hz3, View.ld_unit_zero (S := S2000x128) hz3, View.ld_unit_zero (S := S1024x128) hz3]
end
end

end Cert.KernelIdeal.Hand

end
-- ==== Proof.Value.P3Pay.lean ====
import proofs.«429475_j15058155340592_1_alg».proof.Proof.Gen.KernelIdeal.Skeleton
import Idealize.ShloMosaic.Lib.Pipeline.Value
import Idealize.ShloMosaic.Lib.ValueLayout
import Idealize.ShloMosaic.PureOps.Ideal.Laws

set_option maxRecDepth 16384

noncomputable section

namespace Cert.KernelIdeal.Val.Pool

open Cert.KernelIdeal Cert.KernelIdeal.Gen
open Idealize.ShloMosaic Idealize.ShloMosaic.ValueIdx

theorem bcastCol (x : IVec S2000x1 32) (r : Fin 2000) (g : Fin 1024) :
    broadcastTo S2000x1024 x broadcasts_S2000x1_S2000x1024 (ix2 r g) = x (ix2 r 0) :=
  broadcastTo_apply x broadcasts_S2000x1_S2000x1024 (ix2 r g) (ix2 r 0) fun a => by
    match a with
    | ⟨0, _⟩ => rfl
    | ⟨1, _⟩ => rfl

-- The one-bit word of an equality test, widened and converted, is the indicator of the equality.
theorem indicator_word (a b : BitVec 32) :
    (FloatOps.sitofp (F := Ideal) .f32 ((IntOp.cmpi .eq a b).setWidth 32) : EReal) = if a = b then 1 else 0 := by
  by_cases h : a = b
  · rw [if_pos h]
    have e : IntOp.cmpi .eq a b = 1#1 := by simp [IntOp.cmpi, h]
    rw [e]
    show ((((1#1 : BitVec 1).setWidth 32).toInt : ℝ) : EReal) = 1
    norm_num
  · rw [if_neg h]
    have e : IntOp.cmpi .eq a b = 0#1 := by
      have hb : (a == b) = false := beq_eq_false_iff_ne.mpr h
      simp [IntOp.cmpi, hb]
    rw [e]
    show ((((0#1 : BitVec 1).setWidth 32).toInt : ℝ) : EReal) = 0
    norm_num

theorem pay5_apply (v3 : Vec Ideal S2000x1 .i32) (r : Fin 2000) (g : Fin 1024) :
    k3_pay5 (F := Ideal) v3 (ix2 r g) = if v3 (ix2 r 0) = BitVec.ofNat 32 g.val then 1 else 0 := by
  unfold k3_pay5
  show (FloatOps.sitofp (F := Ideal) .f32 ((IntOp.cmpi .eq (broadcastTo _ _ _ _) (broadcastTo _ _ _ _)).setWidth 32) : EReal) = _
  rw [bcastCol, broadcastTo_1b_ab_apply, iota_single_apply, shapeCast_self]
  exact indicator_word _ _

-- Both operands are contracted along their rows.
theorem poolDot_apply {φ₁ φ₂ : FTy} (L : FVec Ideal S2000x1024 φ₁) (R : FVec Ideal S2000x128 φ₂) (g : Fin 1024) (q : Fin 128) :
    matmul dot_S2000x1024_S2000x128_S1024x128_0_0_1_1_n_n none L R (constant S1024x128 .f32 0x00000000#32) (ix2 g q)
      = ∑ r : Fin 2000, L (ix2 r g) * R (ix2 r q) := by
  simp only [matmul]
  rw [Ideal.matmul_constant_zero_apply, ← Equiv.sum_comp (contrEquiv1 dot_S2000x1024_S2000x128_S1024x128_0_0_1_1_n_n 2000 rfl rfl).symm]
  refine Finset.sum_congr rfl fun k _ => ?_
  have hk := contrEquiv1_symm_val dot_S2000x1024_S2000x128_S1024x128_0_0_1_1_n_n 2000 rfl rfl k
  have el : dot_S2000x1024_S2000x128_S1024x128_0_0_1_1_n_n.lhsIdx (ix2 g q) ((contrEquiv1 dot_S2000x1024_S2000x128_S1024x128_0_0_1_1_n_n 2000 rfl rfl).symm k) = ix2 k g :=
    Shape.idx_ext₂ ((dot_S2000x1024_S2000x128_S1024x128_0_0_1_1_n_n.lhsIdx_val_of_single rfl _ _).trans hk) (by rfl)
  have er : dot_S2000x1024_S2000x128_S1024x128_0_0_1_1_n_n.rhsIdx (ix2 g q) ((contrEquiv1 dot_S2000x1024_S2000x128_S1024x128_0_0_1_1_n_n 2000 rfl rfl).symm k) = ix2 k q :=
    Shape.idx_ext₂ ((dot_S2000x1024_S2000x128_S1024x128_0_0_1_1_n_n.rhsIdx_val_of_single rfl _ _).trans hk) (by rfl)
  rw [el, er]

-- One point's update: the accumulator gains the features of the block's rows whose graph number is `g`.
theorem pay7_apply (v3 : Vec Ideal S2000x1 .i32) (x : Vec Ideal S2000x128 .f32) (a : Vec Ideal S1024x128 .f32)
    (g : Fin 1024) (q : Fin 128) :
    k3_pay7 (F := Ideal) v3 x a (ix2 g q)
      = a (ix2 g q) + ∑ r : Fin 2000, if v3 (ix2 r 0) = BitVec.ofNat 32 g.val then (x (ix2 r q) : EReal) else 0 := by
  unfold k3_pay7
  show (shapeCast _ a _ (ix2 g q) : EReal) + matmul _ none (k3_pay5 (F := Ideal) v3) (truncf .bf16 (shapeCast _ x _) _) _ (ix2 g q) = _
  rw [poolDot_apply, shapeCast_self]
  refine congrArg (a (ix2 g q) + ·) (Finset.sum_congr rfl fun r _ => ?_)
  rw [pay5_apply, truncf_apply, shapeCast_self]
  by_cases h : v3 (ix2 r 0) = BitVec.ofNat 32 g.val
  · rw [if_pos h, if_pos h]; exact one_mul _
  · rw [if_neg h, if_neg h]; exact zero_mul _

theorem pay2_apply (j : S1024x128.Idx) : (k3_pay2 (F := Ideal) j : EReal) = 0 := Ideal.ofBits_zero_f32

end Cert.KernelIdeal.Val.Pool

end
-- ==== Proof.Value.P3Sum.lean ====
import proofs.«429475_j15058155340592_1_alg».proof.Proof.Value.Spec
import Mathlib.Algebra.BigOperators.Fin
import Mathlib.Logic.Equiv.Fin.Basic

noncomputable section

namespace Cert.Spec

open Idealize.ShloMosaic Idealize.ShloMosaic.ValueIdx

def node (t : Fin 50) (r : Fin 2000) : Fin 100000 := ⟨2000 * t.val + r.val, by have := t.isLt; have := r.isLt; omega⟩

-- Every node is row `r` of block `t` for exactly one pair `(t, r)`.
theorem sum_nodes {M : Type*} [AddCommMonoid M] (f : Fin 100000 → M) :
    ∑ n : Fin 100000, f n = ∑ t : Fin 50, ∑ r : Fin 2000, f (node t r) := by
  rw [← Equiv.sum_comp (finProdFinEquiv (m := 50) (n := 2000)) f, Fintype.sum_prod_type]
  refine Finset.sum_congr rfl fun t _ => Finset.sum_congr rfl fun r _ => congrArg f (Fin.ext ?_)
  show r.val + 2000 * t.val = 2000 * t.val + r.val
  omega

def gain (h : Mat 100000 128) (batch : IMat 100000 1) (t : Fin 50) (g : Fin 1024) (q : Fin 128) : EReal :=
  ∑ r : Fin 2000, if batch (ix2 (node t r) 0) = BitVec.ofNat 32 g.val then h (ix2 (node t r) q) else 0

-- What the blocks below `n` add together.
def upto (h : Mat 100000 128) (batch : IMat 100000 1) (n : ℕ) : Mat 1024 128 :=
  fun i => ∑ s ∈ Finset.range n, if hs : s < 50 then gain h batch ⟨s, hs⟩ (i 0) (i 1) else 0

theorem upto_zero (h : Mat 100000 128) (batch : IMat 100000 1) : upto h batch 0 = fun _ => 0 :=
  funext fun _ => Finset.sum_range_zero _

theorem upto_succ (h : Mat 100000 128) (batch : IMat 100000 1) (t : Fin 50) (g : Fin 1024) (q : Fin 128) :
    upto h batch (t.val + 1) (ix2 g q) = upto h batch t.val (ix2 g q) + gain h batch t g q :=
  (Finset.sum_range_succ _ _).trans (congrArg (upto h batch t.val (ix2 g q) + ·) (dif_pos t.isLt))

theorem upto_last_eq_pool (h : Mat 100000 128) (batch : IMat 100000 1) : upto h batch 50 = pool h batch := by
  funext i
  obtain ⟨g, q, rfl⟩ : ∃ (g : Fin 1024) (q : Fin 128), i = ix2 g q := ⟨i 0, i 1, eq_ix2 i⟩
  show (∑ s ∈ Finset.range 50, if hs : s < 50 then gain h batch ⟨s, hs⟩ g q else 0)
    = ∑ n : Fin 100000, if batch (ix2 n 0) = BitVec.ofNat 32 g.val then h (ix2 n q) else 0
  rw [sum_nodes, ← Fin.sum_univ_eq_sum_range (fun s => if hs : s < 50 then gain h batch ⟨s, hs⟩ g q else 0) 50]
  exact Finset.sum_congr rfl fun t _ => dif_pos t.isLt

end Cert.Spec

end
-- ==== Proof.Value.OneFlush.lean ====
import Idealize.ShloMosaic.Lib.Pipeline.Value

namespace Idealize.ShloMosaic

open Idealize.SL Idealize.SL.RA

namespace Pipeline

variable {nD : Nat} {τ : Topo} {sig : RefSig} {Val : EltTy → Type}
variable {Ix : Type} [DecidableEq Ix] {Name : Type} [DecidableEq Name] {U : Type} [URA U] {Lvl : Type}
variable {Λ₀ : SL.Sem.Labels} {cfg : Cfg sig Λ₀} {c : Dev nD} (dat : Dat τ Val Ix Name U Lvl cfg c)

-- Among the points that write there are no two distinct ones.
theorem Dat.read_arrAt_of_one_flush (w : Fin cfg.W) (t₀ : Fin cfg.N) (h : ∀ t, (cfg.win w).flush t = true → t = t₀)
    (h₀ : (cfg.win w).flush t₀ = true) :
    ((cfg.win w).blk t₀).view.read Val (dat.arrAt w cfg.N) = dat.flushed w t₀ :=
  dat.read_blk_arrAt_eq_flushed w (fun t t' hf hf' hne => absurd ((h t hf).trans (h t' hf').symm) hne) cfg.N t₀ t₀.isLt h₀

end Pipeline

end Idealize.ShloMosaic
-- ==== Proof.Value.P3.lean ====
import proofs.«429475_j15058155340592_1_alg».proof.Proof.KernelIdeal.R3Pieces
import proofs.«429475_j15058155340592_1_alg».proof.Proof.Value.P3Pay
import proofs.«429475_j15058155340592_1_alg».proof.Proof.Value.P3Sum
import proofs.«429475_j15058155340592_1_alg».proof.Proof.Value.OneFlush
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.GenP
open Idealize.ShloMosaic Idealize.ShloMosaic.TcCoe Idealize.ShloMosaic.Tactic Idealize.SL.Sem
open Idealize.ShloMosaic.ValueIdx
open Idealize.ShloMosaic.Pipeline (Dat)

namespace Pool

variable (V : (c : Dev nD) → (b : Ref sig .tc) → Buf (Elt Ideal) ((c : Thread nD τ).loc b))

theorem N3 : cfg3.N = 50 := N_3

abbrev blockNo (t : Fin cfg3.N) : Fin 50 := ⟨t.val, lt_of_lt_of_eq t.isLt N3⟩

theorem idx3 : ∀ t : Fin grid3.N, (win3_0.index t 0 = t.val ∧ win3_0.index t 1 = 0) ∧ (win3_1.index t 0 = t.val ∧ win3_1.index t 1 = 0)
    ∧ (win3_2.index t 0 = t.val ∧ win3_2.index t 1 = 0) ∧ (win3_3.index t 0 = t.val ∧ win3_3.index t 1 = 0) := by
  decide +kernel

-- Row `r` of the block at block index `(t, 0)` is node `2000 t + r`.
theorem node_ix {m : ℕ} (t : Fin cfg3.N) (r : Fin 2000) (q : Fin m) {i : (⟨2, ![100000, m]⟩ : Shape).Idx} {i0 i1 : ℕ}
    (hi : i0 = t.val ∧ i1 = 0) (h0 : (i 0).val = i0 * 2000 + 1 * r.val) (h1 : (i 1).val = i1 * m + 1 * q.val) :
    i = ix2 (Spec.node (blockNo t) r) q :=
  Shape.idx_ext₂ (by rw [h0, hi.1]; show _ = 2000 * t.val + r.val; omega) (by rw [h1, hi.2]; show _ = q.val; omega)

theorem blk0_apply (c : Dev nD) (t : Fin cfg3.N) (r : Fin 2000) (q : Fin 128) :
    Hand.iblk3 V c 0 t (ix2 r q) = V c main_v16 (ix2 (Spec.node (blockNo t) r) q) := by
  unfold Hand.iblk3
  rw [View.read_apply]
  show V c main_v16 _ = V c main_v16 _
  exact congrArg _ (node_ix t r q (idx3 t).1 (by rfl) (by rfl))

theorem blk1_apply (c : Dev nD) (t : Fin cfg3.N) (r : Fin 2000) (q : Fin 128) :
    Hand.iblk3 V c 1 t (ix2 r q) = V c main_v29 (ix2 (Spec.node (blockNo t) r) q) := by
  unfold Hand.iblk3
  rw [View.read_apply]
  show V c main_v29 _ = V c main_v29 _
  exact congrArg _ (node_ix t r q (idx3 t).2.1 (by rfl) (by rfl))

theorem blk2_apply (c : Dev nD) (t : Fin cfg3.N) (r : Fin 2000) (q : Fin 128) :
    Hand.iblk3 V c 2 t (ix2 r q) = V c main_v42 (ix2 (Spec.node (blockNo t) r) q) := by
  unfold Hand.iblk3
  rw [View.read_apply]
  show V c main_v42 _ = V c main_v42 _
  exact congrArg _ (node_ix t r q (idx3 t).2.2.1 (by rfl) (by rfl))

theorem blkB_apply (c : Dev nD) (t : Fin cfg3.N) (r : Fin 2000) :
    Hand.iblk3 V c 3 t (ix2 r 0) = V c main_v43 (ix2 (Spec.node (blockNo t) r) 0) := by
  unfold Hand.iblk3
  rw [View.read_apply]
  show V c main_v43 _ = V c main_v43 _
  exact congrArg _ (node_ix t r 0 (idx3 t).2.2.2 (by rfl) (by rfl))

theorem zero (c : Dev nD) (A : Spec.Mat 100000 128) : k3_pay2 (F := Ideal) = Spec.upto A (V c main_v43) 0 :=
  funext fun j => (pay2_apply j).trans (congrFun (Spec.upto_zero A _) j).symm

-- One point's update takes the sum over the blocks below `t` to the sum over the blocks below `t + 1`.
theorem step (c : Dev nD) (t : Fin cfg3.N) {x : Vec Ideal S2000x128 .f32} {A : Spec.Mat 100000 128} {a : Vec Ideal S1024x128 .f32}
    (hx : ∀ r q, x (ix2 r q) = A (ix2 (Spec.node (blockNo t) r) q)) (ha : a = Spec.upto A (V c main_v43) t.val) :
    k3_pay7 (Hand.iblk3 V c 3 t) x a = Spec.upto A (V c main_v43) (t.val + 1) := by
  subst ha
  funext j
  obtain ⟨g, q, rfl⟩ : ∃ (g : Fin 1024) (q : Fin 128), j = ix2 g q := ⟨j 0, j 1, eq_ix2 j⟩
  rw [pay7_apply, Spec.upto_succ _ _ (blockNo t)]
  exact congrArg (_ + ·) (Finset.sum_congr rfl fun r _ => by rw [blkB_apply, hx])

theorem outs_eq (c : Dev nD) : ∀ (n : ℕ) (h : n < cfg3.N), Hand.outsAt3 V c n h
    = (Spec.upto (V c main_v16) (V c main_v43) (n + 1), Spec.upto (V c main_v29) (V c main_v43) (n + 1),
       Spec.upto (V c main_v42) (V c main_v43) (n + 1))
  | 0, h => by
    rw [Hand.outsAt3_A V c ⟨0, h⟩ rfl, Hand.out3_A_4_eq, Hand.out3_A_5_eq, Hand.out3_A_6_eq]
    exact Prod.ext (step V c ⟨0, h⟩ (blk0_apply V c _) (zero V c _))
      (Prod.ext (step V c ⟨0, h⟩ (blk1_apply V c _) (zero V c _)) (step V c ⟨0, h⟩ (blk2_apply V c _) (zero V c _)))
  | n + 1, h => by
    have hB : ¬(⟨n + 1, h⟩ : Fin cfg3.N).val % 50 = 0 := by have := N3; dsimp only; omega
    have ih := outs_eq c n (Nat.lt_of_succ_lt h)
    rw [Hand.outsAt3_B V c ⟨n + 1, h⟩ hB, Hand.out3_B_4_eq, Hand.out3_B_5_eq, Hand.out3_B_6_eq]
    exact Prod.ext (step V c ⟨n + 1, h⟩ (blk0_apply V c _) (congrArg (·.1) ih))
      (Prod.ext (step V c ⟨n + 1, h⟩ (blk1_apply V c _) (congrArg (·.2.1) ih)) (step V c ⟨n + 1, h⟩ (blk2_apply V c _) (congrArg (·.2.2) ih)))

def tLast : Fin cfg3.N := ⟨49, by rw [N3]; decide⟩

theorem only_last {w : Fin cfg3.W} (hf : ∀ t : Fin cfg3.N, (cfg3.win w).flush t = true ↔ t.val % 50 = 49) :
    (∀ t, (cfg3.win w).flush t = true → t = tLast) ∧ (cfg3.win w).flush tLast = true :=
  ⟨fun t h => Fin.ext (by have := (hf t).mp h; have := t.isLt; have := N3; show t.val = 49; omega), (hf tLast).mpr rfl⟩

end Pool

open Pool

variable (V : (c : Dev nD) → (b : Ref sig .tc) → Buf (Elt Ideal) ((c : Thread nD τ).loc b))

-- Each result array ends as the sum over all fifty blocks.
theorem final3_4 (c : Dev nD) : (Hand.dat3 V c).arrAt 4 cfg3.N = Spec.pool (V c main_v16) (V c main_v43) :=
  (Memref.read_access_unit_zero _ main_v44_0 (funext fun a => by fin_cases a <;> decide) _ _).symm.trans
    (((Hand.dat3 V c).read_arrAt_of_one_flush 4 tLast (only_last flush3_4).1 (only_last flush3_4).2).trans
      ((Hand.after3_4 V c tLast).trans ((congrArg (·.1) (outs_eq V c 49 tLast.isLt)).trans (Spec.upto_last_eq_pool _ _))))

theorem final3_5 (c : Dev nD) : (Hand.dat3 V c).arrAt 5 cfg3.N = Spec.pool (V c main_v29) (V c main_v43) :=
  (Memref.read_access_unit_zero _ main_v44_1 (funext fun a => by fin_cases a <;> decide) _ _).symm.trans
    (((Hand.dat3 V c).read_arrAt_of_one_flush 5 tLast (only_last flush3_5).1 (only_last flush3_5).2).trans
      ((Hand.after3_5 V c tLast).trans ((congrArg (·.2.1) (outs_eq V c 49 tLast.isLt)).trans (Spec.upto_last_eq_pool _ _))))

theorem final3_6 (c : Dev nD) : (Hand.dat3 V c).arrAt 6 cfg3.N = Spec.pool (V c main_v42) (V c main_v43) :=
  (Memref.read_access_unit_zero _ main_v44_2 (funext fun a => by fin_cases a <;> decide) _ _).symm.trans
    (((Hand.dat3 V c).read_arrAt_of_one_flush 6 tLast (only_last flush3_6).1 (only_last flush3_6).2).trans
      ((Hand.after3_6 V c tLast).trans ((congrArg (·.2.2) (outs_eq V c 49 tLast.isLt)).trans (Spec.upto_last_eq_pool _ _))))

end Cert.KernelIdeal.Val

end
-- ==== Proof.Value.Total.lean ====
import proofs.«429475_j15058155340592_1_alg».proof.Proof.Value.Spec

noncomputable section

namespace Cert.Spec

open Idealize.ShloMosaic Idealize.ShloMosaic.ValueIdx

def row {n : Nat} (b : (⟨1, ![n]⟩ : Shape).Idx → EReal) : Mat 1 n := fun i => b (ix1 (i 1))

def col (b : (⟨1, ![100000]⟩ : Shape).Idx → BitVec 32) : IMat 100000 1 := fun i => b (ix1 (i 0))

abbrev eps : EReal := Ideal.ofBits .f32 0x3727C5AC#32

def total (agg7 : Mat 100000 7 → IMat 2 1600000 → Mat 100000 7) (agg128 : Mat 100000 128 → IMat 2 1600000 → Mat 100000 128)
    (x : Mat 100000 7) (ei : IMat 2 1600000) (batch : (⟨1, ![100000]⟩ : Shape).Idx → BitVec 32)
    (w1_0 : Mat 7 128) (b1_0 : (⟨1, ![128]⟩ : Shape).Idx → EReal) (w2_0 : Mat 128 128) (b2_0 : (⟨1, ![128]⟩ : Shape).Idx → EReal)
    (w1_1 : Mat 128 128) (b1_1 : (⟨1, ![128]⟩ : Shape).Idx → EReal) (w2_1 : Mat 128 128) (b2_1 : (⟨1, ![128]⟩ : Shape).Idx → EReal)
    (w1_2 : Mat 128 128) (b1_2 : (⟨1, ![128]⟩ : Shape).Idx → EReal) (w2_2 : Mat 128 128) (b2_2 : (⟨1, ![128]⟩ : Shape).Idx → EReal)
    (cw1 : Mat 384 256) (cb1 : (⟨1, ![256]⟩ : Shape).Idx → EReal) (cw2 : Mat 256 2) (cb2 : (⟨1, ![2]⟩ : Shape).Idx → EReal)
    (gam bet mean var : (⟨1, ![256]⟩ : Shape).Idx → EReal) : Mat 1024 2 :=
  let h1 := layer x (agg7 x ei) w1_0 (row b1_0) w2_0 (row b2_0)
  let h2 := layer h1 (agg128 h1 ei) w1_1 (row b1_1) w2_1 (row b2_1)
  let h3 := layer h2 (agg128 h2 ei) w1_2 (row b1_2) w2_2 (row b2_2)
  clf (cat3 (pool h1 (col batch)) (pool h2 (col batch)) (pool h3 (col batch))) cw1 (row cb1) (row gam) (row bet) (row mean) (row var)
    eps cw2 (row cb2)

end Cert.Spec

end
-- ==== Proof.Value.C4Pay.lean ====
import proofs.«429475_j15058155340592_1_alg».proof.Proof.Gen.KernelIdeal.Skeleton
import proofs.«429475_j15058155340592_1_alg».proof.Proof.LibPlainDot
import proofs.«429475_j15058155340592_1_alg».proof.Proof.Value.Total
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.ValueIdx

theorem dotHidden_eq : dot_S1024x384_S384x256_S1024x256_1_0_0_1_n_n = DotDims.plain 1024 384 256 := rfl

theorem dotOut_eq : dot_S1024x256_S256x2_S1024x2_1_0_0_1_n_n = DotDims.plain 1024 256 2 := rfl

-- Two affine maps with a normalisation, a scale, a shift and a clip at zero between them.
theorem pay_apply (g : Vec Ideal S1024x384 .f32) (w1 : Vec Ideal S384x256 .f32) (b1 var mean gam bet : Vec Ideal S1x256 .f32)
    (w2 : Vec Ideal S256x2 .f32) (b2 : Vec Ideal S1x2 .f32) (r : Fin 1024) (q : Fin 2) :
    k4_pay1 (k4_pay2 g w1 b1 var mean gam bet w2) (k4_pay3 b2) (ix2 r q)
      = Spec.clf g w1 b1 gam bet mean var Spec.eps w2 b2 (ix2 r q) := by
  unfold k4_pay1 k4_pay3 k4_pay2 Spec.clf Spec.clfHidden
  dsimp only
  simp only [shapeCast_self, matmul, dotOut_eq, dotHidden_eq]
  rw [addf_apply, broadcastTo_1b_ab_apply, Cert.Lib.PlainDot.matmul_zero_apply]
  refine congrArg₂ (· + ·) (Finset.sum_congr rfl fun k _ => congrArg (· * _) ?_) rfl
  rw [truncf_apply, maximumf_apply, addf_apply, mulf_apply, mulf_apply, subf_apply, addf_apply, broadcast_apply,
    Cert.Lib.PlainDot.matmul_zero_apply]
  simp only [broadcastTo_1b_ab_apply]
  show max ((((∑ d : Fin 384, g (ix2 r d) * w1 (ix2 d k)) + b1 (ix2 0 k) - mean (ix2 0 k))
      * Ideal.rsqrt (var (ix2 0 k) + Ideal.ofBits .f32 0x3727C5AC#32)) * gam (ix2 0 k) + bet (ix2 0 k)) (Ideal.ofBits .f32 0x00000000#32) = _
  rw [Ideal.ofBits_zero_f32]

end Cert.KernelIdeal.Val

end
-- ==== Proof.Value.C4.lean ====
import proofs.«429475_j15058155340592_1_alg».proof.Proof.KernelIdeal.R4
import proofs.«429475_j15058155340592_1_alg».proof.Proof.Value.C4Pay
import proofs.«429475_j15058155340592_1_alg».proof.Proof.Value.OneFlush
import Idealize.ShloMosaic.Lib.Pipeline.Value

set_option maxRecDepth 16384

noncomputable section

namespace Cert.KernelIdeal.Val

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

-- The body computes the classifier of its nine input blocks.
theorem out_eq (x0 : Vec Ideal S1024x384 .f32) (x1 : Vec Ideal S384x256 .f32) (x2 x3 x4 x5 x6 : Vec Ideal S1x256 .f32)
    (x7 : Vec Ideal S256x2 .f32) (x8 : Vec Ideal S1x2 .f32) :
    Hand.out4_9 x0 x1 x2 x3 x4 x5 x6 x7 x8 = Spec.clf x0 x1 x2 x3 x4 x5 x6 Spec.eps x7 x8 := by
  unfold Hand.out4_9
  rw [View.canon_unit_zero zeros2]
  simp only [View.ld_unit_zero (S := S1024x384) zeros2, View.ld_unit_zero (S := S384x256) zeros2,
    View.ld_unit_zero (S := S1x256) zeros2, View.ld_unit_zero (S := S256x2) zeros2, View.ld_unit_zero (S := S1x2) zeros2]
  funext j
  obtain ⟨r, q, rfl⟩ : ∃ (r : Fin 1024) (q : Fin 2), j = ix2 r q := ⟨j 0, j 1, eq_ix2 j⟩
  exact pay_apply x0 x1 x2 x6 x5 x3 x4 x7 x8 r q

theorem after_eq (c : Dev nD) : (Hand.dat4 V c).after 9 t4_0
    = Spec.clf (V c main_v45) (V c main_arg15) (V c main_v46) (V c main_v48) (V c main_v49) (V c main_v50) (V c main_v51)
        Spec.eps (V c main_arg17) (V c main_v47) := by
  rw [Hand.after4_9, out_eq]
  congr 1 <;> exact Memref.read_access_unit_zero _ _ (funext fun a => by fin_cases a <;> decide) _ _

theorem final4 (c : Dev nD) :
    (Hand.dat4 V c).arrAt 9 cfg4.N = Spec.clf (V c main_v45) (V c main_arg15) (V c main_v46) (V c main_v48) (V c main_v49)
      (V c main_v50) (V c main_v51) Spec.eps (V c main_arg17) (V c main_v47) :=
  (Memref.read_access_unit_zero _ main_v52 (funext fun a => by fin_cases a <;> decide) _ _).symm.trans
    (((Hand.dat4 V c).read_arrAt_of_one_flush 9 t4_0 (fun t _ => fin_N4 t) (flush4_9 t4_0)).trans (after_eq V c))

end Cert.KernelIdeal.Val

end
-- ==== Proof.Value.Host.lean ====
import proofs.«429475_j15058155340592_1_alg».proof.Proof.KernelIdealRegions
import proofs.«429475_j15058155340592_1_alg».proof.Proof.Value.Total
import Idealize.ShloMosaic.Lib.Pipeline.Value
import Idealize.ShloMosaic.Lib.ValueLayout
import Idealize.ShloMosaic.Lib.ValueIdx
import Idealize.ShloMosaic.Lib.StableHlo.Run

set_option maxRecDepth 16384

noncomputable section

namespace Cert.KernelIdeal.Val

open Cert.KernelIdeal Cert.KernelIdeal.Gen Cert.KernelIdeal.GenP
open Idealize.ShloMosaic Idealize.ShloMosaic.TcCoe Idealize.ShloMosaic.ValueIdx
open Idealize.ShloMosaic.StableHlo
open Idealize.SL.Sem

abbrev src (ei : Spec.IMat 2 1600000) : S1600000.Idx → BitVec 32 :=
  shapeCast S1600000 (extractStridedSlice S1x1600000 ![0, 0] ei slices_S2x1600000_S1x1600000_0_0) shapeCasts_S1x1600000_S1600000

abbrev dst (ei : Spec.IMat 2 1600000) : S1600000.Idx → BitVec 32 :=
  shapeCast S1600000 (extractStridedSlice S1x1600000 ![1, 0] ei slices_S2x1600000_S1x1600000_1_0) shapeCasts_S1x1600000_S1600000

-- Each edge adds its source row of `h` (a negative source number moved up by the node count) into its destination row of the zero array.
def agg {D : Nat} (sc : ScatterDims ⟨2, ![100000, D]⟩ S1600000x1 ⟨2, ![1600000, D]⟩)
    (bz : S_.BroadcastsInDim ⟨2, ![100000, D]⟩ (![] : Fin 0 → Fin 2))
    (g : GatherDims ⟨2, ![100000, D]⟩ S1600000x1 ⟨2, ![1600000, D]⟩)
    (h : Spec.Mat 100000 D) (ei : Spec.IMat 2 1600000) : Spec.Mat 100000 D :=
  Host.scatterAdd sc (broadcastInDim ⟨2, ![100000, D]⟩ ![] bz (constant (F := Ideal) S_ .f32 0x00000000#32))
    (broadcastInDim S1600000x1 ![0] bcast_S1600000_S1600000x1_0 (dst ei))
    (Host.gather g h (broadcastInDim S1600000x1 ![0] bcast_S1600000_S1600000x1_0
      (select (cmpi .slt (src ei) (broadcastInDim S1600000 ![] bcast_S_S1600000 (constantI S_ 32 0#32)))
        (addi (src ei) (broadcastInDim S1600000 ![] bcast_S_S1600000 (constantI S_ 32 100000#32))) (src ei))))

def aggK7 (h : Spec.Mat 100000 7) (ei : Spec.IMat 2 1600000) : Spec.Mat 100000 7 :=
  agg scatter_S100000x7_S1600000x1_S1600000x7_1_0_0_1 bcast_S_S100000x7 gather_S100000x7_S1600000x1_S1600000x7_1_0_n_n_0_1_17 h ei

def aggK128 (h : Spec.Mat 100000 128) (ei : Spec.IMat 2 1600000) : Spec.Mat 100000 128 :=
  agg scatter_S100000x128_S1600000x1_S1600000x128_1_0_0_1 bcast_S_S100000x128 gather_S100000x128_S1600000x1_S1600000x128_1_0_n_n_0_1_1128 h ei

theorem aggK7_eq (h : Spec.Mat 100000 7) (ei : Spec.IMat 2 1600000) :
    aggK7 h ei = agg scatter_S100000x7_S1600000x1_S1600000x7_1_0_0_1 bcast_S_S100000x7 gather_S100000x7_S1600000x1_S1600000x7_1_0_n_n_0_1_17 h ei := rfl

theorem aggK128_eq (h : Spec.Mat 100000 128) (ei : Spec.IMat 2 1600000) :
    aggK128 h ei = agg scatter_S100000x128_S1600000x1_S1600000x128_1_0_0_1 bcast_S_S100000x128 gather_S100000x128_S1600000x1_S1600000x128_1_0_n_n_0_1_1128 h ei := rfl

variable (m : (ℓ : Loc nD τ sig) → Buf (Elt Ideal) ℓ) (outs : GenP.Outs (F := Ideal))

theorem row_of_cast {n : Nat} (x : (⟨1, ![n]⟩ : Shape).Idx → EReal) (h : (⟨1, ![n]⟩ : Shape).ShapeCasts ⟨2, ![1, n]⟩) :
    (shapeCast ⟨2, ![1, n]⟩ x h : Spec.Mat 1 n) = Spec.row x := by
  funext i
  rw [eq_ix2 i]
  exact shapeCast_a_1a_apply x h _ _

theorem col_of_cast (x : (⟨1, ![100000]⟩ : Shape).Idx → BitVec 32)
    (h : (⟨1, ![100000]⟩ : Shape).ShapeCasts ⟨2, ![100000, 1]⟩) :
    (shapeCast ⟨2, ![100000, 1]⟩ x h : Spec.IMat 100000 1) = Spec.col x := by
  funext i
  refine shapeCast_apply x h i (ix1 (i 0)) ?_
  rw [Shape.rowMajor_val_one, Shape.rowMajor_val_two]
  show (i 0).val = (i 0).val * 1 + (i 1).val
  have h1 : (i 1).val < 1 := idx2_lt1 i
  omega

-- Three arrays of 128 columns side by side: column `j` lies in piece `j / 128` at its column `j % 128`.
theorem cat3_of_concat (a b d : Spec.Mat 1024 128)
    (h : Shape.Concatenates [S1024x128, S1024x128, S1024x128] S1024x384 1) :
    (concatenate S1024x384 1 [⟨S1024x128, a⟩, ⟨S1024x128, b⟩, ⟨S1024x128, d⟩] h : Spec.Mat 1024 384) = Spec.cat3 a b d := by
  funext i
  have hi1 : (i 1).val < 384 := idx2_lt1 i
  have key := fun (n : Fin 3) (r : Fin 128) (hn : (i 1).val / 128 = n.val) (hr : r.val = (i 1).val % 128) =>
    concatenate_ofFn_apply (t := S1024x384) (s₁ := S1024x128) (1 : Fin 2) ![a, b, d] h rfl 128 rfl i n hn (ix2 (i 0) r) hr
      (fun q hq => match q with | ⟨0, _⟩ => rfl | ⟨1, _⟩ => absurd rfl hq)
  unfold Spec.cat3
  split
  · exact key 0 _ (by show _ = 0; omega) rfl
  · split
    · exact key 1 _ (by show _ = 1; omega) (by show ((i 1).val - 128) % 128 = _; omega)
    · exact key 2 _ (by show _ = 2; omega) (by show ((i 1).val - 256) % 128 = _; omega)

abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

theorem nw {W : List (Ref sig .tc)} {r : Ref sig .tc} (hr : r ∈ args) (h : ∀ r ∈ args, r ∉ W := by decide) : r ∉ W := h r hr

section
variable (c : Dev nD) (r : Ref sig .tc) (hr : r ∈ args)
include hr

-- No item writes an argument, so at every stage it holds its launch contents.
theorem V1_arg : GenP.V1 m c r = m ((c : Thread nD τ).loc r) := GenP.V1_of m c r (nw hr)
theorem V2_arg : GenP.V2 m outs c r = m ((c : Thread nD τ).loc r) := (GenP.V2_of m outs c r (nw hr)).trans (V1_arg m c r hr)
theorem V3_arg : GenP.V3 m outs c r = m ((c : Thread nD τ).loc r) := (GenP.V3_of m outs c r (nw hr)).trans (V2_arg m outs c r hr)
theorem V4_arg : GenP.V4 m outs c r = m ((c : Thread nD τ).loc r) := (GenP.V4_of m outs c r (nw hr)).trans (V3_arg m outs c r hr)
theorem V5_arg : GenP.V5 m outs c r = m ((c : Thread nD τ).loc r) := (GenP.V5_of m outs c r (nw hr)).trans (V4_arg m outs c r hr)
theorem V6_arg : GenP.V6 m outs c r = m ((c : Thread nD τ).loc r) := (GenP.V6_of m outs c r (nw hr)).trans (V5_arg m outs c r hr)
theorem V7_arg : GenP.V7 m outs c r = m ((c : Thread nD τ).loc r) := (GenP.V7_of m outs c r (nw hr)).trans (V6_arg m outs c r hr)
theorem V8_arg : GenP.V8 m outs c r = m ((c : Thread nD τ).loc r) := (GenP.V8_of m outs c r (nw hr)).trans (V7_arg m outs c r hr)
theorem V9_arg : GenP.V9 m outs c r = m ((c : Thread nD τ).loc r) := (GenP.V9_of m outs c r (nw hr)).trans (V8_arg m outs c r hr)
end

theorem V1_main_v1 (c : Dev nD) : (GenP.V1 m c main_v1 : S1600000.Idx → BitVec 32) = src (m ((c : Thread nD τ).loc main_arg1)) := by
  dsimp only [GenP.V1, GenP.V0, GenP.hostOps0]; after_results; rfl

theorem V1_main_v3 (c : Dev nD) : (GenP.V1 m c main_v3 : S1600000.Idx → BitVec 32) = dst (m ((c : Thread nD τ).loc main_arg1)) := by
  dsimp only [GenP.V1, GenP.V0, GenP.hostOps0]; after_results; rfl

theorem V1_main_v13 (c : Dev nD) : (GenP.V1 m c main_v13 : Spec.Mat 100000 7) = aggK7 (m ((c : Thread nD τ).loc main_arg0)) (m ((c : Thread nD τ).loc main_arg1)) := by
  dsimp only [GenP.V1, GenP.V0, GenP.hostOps0]; after_results_simp; rfl

theorem V1_main_v14 (c : Dev nD) : (GenP.V1 m c main_v14 : Spec.Mat 1 128) = Spec.row (m ((c : Thread nD τ).loc main_arg4)) := by
  dsimp only [GenP.V1, GenP.hostOps0]; after_results; exact row_of_cast _ _

theorem V1_main_v15 (c : Dev nD) : (GenP.V1 m c main_v15 : Spec.Mat 1 128) = Spec.row (m ((c : Thread nD τ).loc main_arg6)) := by
  dsimp only [GenP.V1, GenP.hostOps0]; after_results; exact row_of_cast _ _

theorem V2_main_v16 (c : Dev nD) : GenP.V2 m outs c main_v16 = outs 2 main_v16 c := Function.update_self _ _ _

theorem V3_main_v26 (c : Dev nD) :
    (GenP.V3 m outs c main_v26 : Spec.Mat 100000 128) = aggK128 (outs 2 main_v16 c) (m ((c : Thread nD τ).loc main_arg1)) := by
  dsimp only [GenP.V3, GenP.hostOps1]; after_results_simp
  rw [V2_main_v16, GenP.V2_of, GenP.V2_of, V1_main_v1, V1_main_v3]
  all_goals first | rfl | decide

theorem V3_main_v27 (c : Dev nD) : (GenP.V3 m outs c main_v27 : Spec.Mat 1 128) = Spec.row (GenP.V2 m outs c main_arg8) := by
  dsimp only [GenP.V3, GenP.hostOps1]; after_results; exact row_of_cast _ _

theorem V3_main_v28 (c : Dev nD) : (GenP.V3 m outs c main_v28 : Spec.Mat 1 128) = Spec.row (GenP.V2 m outs c main_arg10) := by
  dsimp only [GenP.V3, GenP.hostOps1]; after_results; exact row_of_cast _ _

theorem V4_main_v29 (c : Dev nD) : GenP.V4 m outs c main_v29 = outs 4 main_v29 c := Function.update_self _ _ _

theorem V5_main_v39 (c : Dev nD) :
    (GenP.V5 m outs c main_v39 : Spec.Mat 100000 128) = aggK128 (outs 4 main_v29 c) (m ((c : Thread nD τ).loc main_arg1)) := by
  dsimp only [GenP.V5, GenP.hostOps2]; after_results_simp
  rw [V4_main_v29, GenP.V4_of, GenP.V4_of, GenP.V3_of, GenP.V3_of, GenP.V2_of, GenP.V2_of, V1_main_v1, V1_main_v3]
  all_goals first | rfl | decide

theorem V5_main_v40 (c : Dev nD) : (GenP.V5 m outs c main_v40 : Spec.Mat 1 128) = Spec.row (GenP.V4 m outs c main_arg12) := by
  dsimp only [GenP.V5, GenP.hostOps2]; after_results; exact row_of_cast _ _

theorem V5_main_v41 (c : Dev nD) : (GenP.V5 m outs c main_v41 : Spec.Mat 1 128) = Spec.row (GenP.V4 m outs c main_arg14) := by
  dsimp only [GenP.V5, GenP.hostOps2]; after_results; exact row_of_cast _ _

theorem V6_main_v42 (c : Dev nD) : GenP.V6 m outs c main_v42 = outs 6 main_v42 c := Function.update_self _ _ _

theorem V7_main_v43 (c : Dev nD) :
    (GenP.V7 m outs c main_v43 : Spec.IMat 100000 1) = Spec.col (GenP.V6 m outs c main_arg2) := by
  dsimp only [GenP.V7, GenP.hostOps3]; after_results; exact col_of_cast _ _

theorem V9_main_v45 (c : Dev nD) :
    (GenP.V9 m outs c main_v45 : Spec.Mat 1024 384)
      = Spec.cat3 (outs 8 main_v44_0 c) (outs 8 main_v44_1 c) (outs 8 main_v44_2 c) := by
  have e : (GenP.V9 m outs c main_v45 : S1024x384.Idx → EReal)
      = concatenate S1024x384 1 [⟨S1024x128, (GenP.V8 m outs c main_v44_0 : S1024x128.Idx → EReal)⟩,
          ⟨S1024x128, (GenP.V8 m outs c main_v44_1 : S1024x128.Idx → EReal)⟩,
          ⟨S1024x128, (GenP.V8 m outs c main_v44_2 : S1024x128.Idx → EReal)⟩]
          concatenates_S1024x128_S1024x128_S1024x128_S1024x384_d1 := by
    dsimp only [GenP.V9, GenP.hostOps4]; after_results; rfl
  rw [e, cat3_of_concat]
  dsimp only [GenP.V8]
  rw [Function.update_of_ne (devRef_ne_of_ne (by decide : main_v44_0 ≠ main_v44_2)),
    Function.update_of_ne (devRef_ne_of_ne (by decide : main_v44_0 ≠ main_v44_1)),
    Function.update_of_ne (devRef_ne_of_ne (by decide : main_v44_1 ≠ main_v44_2)),
    Function.update_self, Function.update_self, Function.update_self]

theorem V9_main_v46 (c : Dev nD) : (GenP.V9 m outs c main_v46 : Spec.Mat 1 256) = Spec.row (GenP.V8 m outs c main_arg16) := by
  dsimp only [GenP.V9, GenP.hostOps4]; after_results; exact row_of_cast _ _

theorem V9_main_v47 (c : Dev nD) : (GenP.V9 m outs c main_v47 : Spec.Mat 1 2) = Spec.row (GenP.V8 m outs c main_arg18) := by
  dsimp only [GenP.V9, GenP.hostOps4]; after_results; exact row_of_cast _ _

theorem V9_main_v48 (c : Dev nD) : (GenP.V9 m outs c main_v48 : Spec.Mat 1 256) = Spec.row (GenP.V8 m outs c main_arg19) := by
  dsimp only [GenP.V9, GenP.hostOps4]; after_results; exact row_of_cast _ _

theorem V9_main_v49 (c : Dev nD) : (GenP.V9 m outs c main_v49 : Spec.Mat 1 256) = Spec.row (GenP.V8 m outs c main_arg20) := by
  dsimp only [GenP.V9, GenP.hostOps4]; after_results; exact row_of_cast _ _

theorem V9_main_v50 (c : Dev nD) : (GenP.V9 m outs c main_v50 : Spec.Mat 1 256) = Spec.row (GenP.V8 m outs c main_arg21) := by
  dsimp only [GenP.V9, GenP.hostOps4]; after_results; exact row_of_cast _ _

theorem V9_main_v51 (c : Dev nD) : (GenP.V9 m outs c main_v51 : Spec.Mat 1 256) = Spec.row (GenP.V8 m outs c main_arg22) := by
  dsimp only [GenP.V9, GenP.hostOps4]; after_results; exact row_of_cast _ _

theorem V10_main_v52 (c : Dev nD) : GenP.V10 m outs c main_v52 = outs 10 main_v52 c := Function.update_self _ _ _

attribute [irreducible] aggK7 aggK128

end Cert.KernelIdeal.Val

end
-- ==== Proof.Value.KernelVal.lean ====
import proofs.«429475_j15058155340592_1_alg».proof.Proof.KernelIdeal.Frame
import proofs.«429475_j15058155340592_1_alg».proof.Proof.Value.L0
import proofs.«429475_j15058155340592_1_alg».proof.Proof.Value.L1
import proofs.«429475_j15058155340592_1_alg».proof.Proof.Value.L2
import proofs.«429475_j15058155340592_1_alg».proof.Proof.Value.P3
import proofs.«429475_j15058155340592_1_alg».proof.Proof.Value.C4
import proofs.«429475_j15058155340592_1_alg».proof.Proof.Value.Host
import proofs.«429475_j15058155340592_1_alg».proof.Proof.Value.Total

set_option maxRecDepth 16384

noncomputable section

namespace Cert.KernelIdeal.Val

open Cert.KernelIdeal Cert.KernelIdeal.Gen Cert.KernelIdeal.GenP
open Idealize.ShloMosaic Idealize.ShloMosaic.TcCoe Idealize.ShloMosaic.ValueIdx
open Idealize.SL.Sem

variable (m : (ℓ : Loc nD τ sig) → Buf (Elt Ideal) ℓ)

-- Each region leaves its function of the launch contents and of what the regions before it left.
theorem outs_2_val (c : Dev nD) : Hand.outs m 2 main_v16 c
    = Spec.layer (m ((c : Thread nD τ).loc main_arg0)) (aggK7 (m ((c : Thread nD τ).loc main_arg0)) (m ((c : Thread nD τ).loc main_arg1))) (m ((c : Thread nD τ).loc main_arg3)) (Spec.row (m ((c : Thread nD τ).loc main_arg4))) (m ((c : Thread nD τ).loc main_arg5)) (Spec.row (m ((c : Thread nD τ).loc main_arg6))) := by
  rw [Hand.outs_2, final0, V1_main_v13, V1_main_v14, V1_main_v15, V1_arg, V1_arg, V1_arg] <;> decide

theorem outs_4_val (c : Dev nD) : Hand.outs m 4 main_v29 c
    = Spec.layer (Hand.outs m 2 main_v16 c) (aggK128 (Hand.outs m 2 main_v16 c) (m ((c : Thread nD τ).loc main_arg1))) (m ((c : Thread nD τ).loc main_arg7)) (Spec.row (m ((c : Thread nD τ).loc main_arg8))) (m ((c : Thread nD τ).loc main_arg9)) (Spec.row (m ((c : Thread nD τ).loc main_arg10))) := by
  rw [Hand.outs_4, final1, V3_main_v26, V3_main_v27, V3_main_v28, GenP.V3_of, V2_main_v16, V3_arg, V3_arg, V2_arg, V2_arg] <;> decide

theorem outs_6_val (c : Dev nD) : Hand.outs m 6 main_v42 c
    = Spec.layer (Hand.outs m 4 main_v29 c) (aggK128 (Hand.outs m 4 main_v29 c) (m ((c : Thread nD τ).loc main_arg1))) (m ((c : Thread nD τ).loc main_arg11)) (Spec.row (m ((c : Thread nD τ).loc main_arg12))) (m ((c : Thread nD τ).loc main_arg13)) (Spec.row (m ((c : Thread nD τ).loc main_arg14))) := by
  rw [Hand.outs_6, final2, V5_main_v39, V5_main_v40, V5_main_v41, GenP.V5_of, V4_main_v29, V5_arg, V5_arg, V4_arg, V4_arg] <;> decide

theorem outs_8_0_val (c : Dev nD) : Hand.outs m 8 main_v44_0 c = Spec.pool (Hand.outs m 2 main_v16 c) (Spec.col (m ((c : Thread nD τ).loc main_arg2))) := by
  rw [Hand.outs_8_0, final3_4, V7_main_v43, V6_arg, GenP.V7_of, GenP.V6_of, GenP.V5_of, GenP.V4_of, GenP.V3_of, V2_main_v16] <;> decide

theorem outs_8_1_val (c : Dev nD) : Hand.outs m 8 main_v44_1 c = Spec.pool (Hand.outs m 4 main_v29 c) (Spec.col (m ((c : Thread nD τ).loc main_arg2))) := by
  rw [Hand.outs_8_1, final3_5, V7_main_v43, V6_arg, GenP.V7_of, GenP.V6_of, GenP.V5_of, V4_main_v29] <;> decide

theorem outs_8_2_val (c : Dev nD) : Hand.outs m 8 main_v44_2 c = Spec.pool (Hand.outs m 6 main_v42 c) (Spec.col (m ((c : Thread nD τ).loc main_arg2))) := by
  rw [Hand.outs_8_2, final3_6, V7_main_v43, V6_arg, GenP.V7_of, V6_main_v42] <;> decide

theorem outs_10_val (c : Dev nD) : Hand.outs m 10 main_v52 c
    = Spec.clf (Spec.cat3 (Hand.outs m 8 main_v44_0 c) (Hand.outs m 8 main_v44_1 c) (Hand.outs m 8 main_v44_2 c)) (m ((c : Thread nD τ).loc main_arg15)) (Spec.row (m ((c : Thread nD τ).loc main_arg16)))
        (Spec.row (m ((c : Thread nD τ).loc main_arg19))) (Spec.row (m ((c : Thread nD τ).loc main_arg20))) (Spec.row (m ((c : Thread nD τ).loc main_arg21))) (Spec.row (m ((c : Thread nD τ).loc main_arg22))) Spec.eps (m ((c : Thread nD τ).loc main_arg17)) (Spec.row (m ((c : Thread nD τ).loc main_arg18))) := by
  rw [Hand.outs_10, final4, V9_main_v45, V9_main_v46, V9_main_v47, V9_main_v48, V9_main_v49, V9_main_v50, V9_main_v51,
    V9_arg, V9_arg, V8_arg, V8_arg, V8_arg, V8_arg, V8_arg, V8_arg] <;> decide

theorem kernel_val (c : Dev nD) :
    (GenP.V10 m (Hand.outs m) c main_v52 : Spec.Mat 1024 2)
      = Spec.total aggK7 aggK128 (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13))
          (m ((c : Thread nD τ).loc main_arg14)) (m ((c : Thread nD τ).loc main_arg15)) (m ((c : Thread nD τ).loc main_arg16))
          (m ((c : Thread nD τ).loc main_arg17)) (m ((c : Thread nD τ).loc main_arg18)) (m ((c : Thread nD τ).loc main_arg19))
          (m ((c : Thread nD τ).loc main_arg20)) (m ((c : Thread nD τ).loc main_arg21)) (m ((c : Thread nD τ).loc main_arg22)) := by
  rw [V10_main_v52, outs_10_val, outs_8_0_val, outs_8_1_val, outs_8_2_val, outs_6_val, outs_4_val, outs_2_val]
  rfl

end Cert.KernelIdeal.Val

end
-- ==== Proof.Value.RefLayer.lean ====
import proofs.«429475_j15058155340592_1_alg».proof.Proof.Gen.ReferenceIdeal.Read
import proofs.«429475_j15058155340592_1_alg».proof.Proof.Value.Total
import Idealize.ShloMosaic.Lib.IdealHost
import Idealize.ShloMosaic.Lib.StackMember
set_option maxRecDepth 16384

noncomputable section

namespace Cert.ReferenceIdeal.RefValue

open Cert.ReferenceIdeal Cert.ReferenceIdeal.Gen Idealize.ShloMosaic Idealize.ShloMosaic.StableHlo Idealize.ShloMosaic.ValueIdx

-- Each edge's source row of `h` (a negative source number counted from the end) added into its destination row of a zero array.
def aggR {s u : Shape} (sc : ScatterDims s S1600000x1 u) (ga : GatherDims s S1600000x1 u) (h : FVec Ideal s .f32)
    (ei : Spec.IMat 2 1600000) : FVec Ideal s .f32 :=
  let src := shapeCast S1600000 (extractStridedSlice S1x1600000 ![0, 0] ei slices_S2x1600000_S1x1600000_0_0) shapeCasts_S1x1600000_S1600000
  Host.scatterAdd (φ := .f32) sc (constant (F := Ideal) s .f32 0x00000000#32)
    (broadcastInDim S1600000x1 ![0] bcast_S1600000_S1600000x1_0
      (shapeCast S1600000 (extractStridedSlice S1x1600000 ![1, 0] ei slices_S2x1600000_S1x1600000_1_0) shapeCasts_S1x1600000_S1600000))
    (Host.gather ga h (broadcastInDim S1600000x1 ![0] bcast_S1600000_S1600000x1_0
      (select (cmpi .slt src (broadcastInDim S1600000 ![] bcast_S_S1600000 (constantI S_ 32 0#32)))
        (addi src (broadcastInDim S1600000 ![] bcast_S_S1600000 (constantI S_ 32 100000#32))) src)))

def aggR7 (h : Spec.Mat 100000 7) (ei : Spec.IMat 2 1600000) : Spec.Mat 100000 7 :=
  aggR scatter_S100000x7_S1600000x1_S1600000x7_1_0_0_1 gather_S100000x7_S1600000x1_S1600000x7_1_0_n_n_0_1_17 h ei

def aggR128 (h : Spec.Mat 100000 128) (ei : Spec.IMat 2 1600000) : Spec.Mat 100000 128 :=
  aggR scatter_S100000x128_S1600000x1_S1600000x128_1_0_0_1 gather_S100000x128_S1600000x1_S1600000x128_1_0_n_n_0_1_1128 h ei

variable {D : Nat}

-- An affine map of the rows, clipped at zero: `max (y W + b, 0)`.
def affRelu (y : Spec.Mat 100000 D) (w : Spec.Mat D 128) (b : (⟨1, ![128]⟩ : Shape).Idx → EReal) : Spec.Mat 100000 128 :=
  maximumf (F := Ideal) (φ := .f32)
    (addf (Host.dotGeneral (φ₁ := .f32) (φ₂ := .f32) (DotDims.plain 100000 D 128) none y w) (Read.val_main_v19 (F := Ideal) b))
    (constant (F := Ideal) S100000x128 .f32 0x00000000#32)

theorem affRelu_apply (y : Spec.Mat 100000 D) (w : Spec.Mat D 128) (b : (⟨1, ![128]⟩ : Shape).Idx → EReal) (n : Fin 100000) (k : Fin 128) :
    affRelu y w b (ix2 n k) = max ((∑ d : Fin D, y (ix2 n d) * w (ix2 d k)) + Spec.row b (ix2 0 k)) 0 := by
  unfold affRelu
  rw [maximumf_apply, addf_apply, StackMember.dotGeneral_plain_apply, Read.val_main_v19_apply, Read.val_main_v18_apply, constant_apply,
    Ideal.ofBits_zero_f32]
  congr 2
  exact congrArg b (funext fun a => match a with | ⟨0, _⟩ => rfl)

-- One layer as the reference computes it: the features times the constant one, plus the aggregation, through two clipped affine maps.
def layerR (h agg : Spec.Mat 100000 D) (w1 : Spec.Mat D 128) (b1 : (⟨1, ![128]⟩ : Shape).Idx → EReal) (w2 : Spec.Mat 128 128)
    (b2 : (⟨1, ![128]⟩ : Shape).Idx → EReal) : Spec.Mat 100000 128 :=
  affRelu (affRelu (addf (F := Ideal) (φ := .f32) (mulf (constant (F := Ideal) ⟨2, ![100000, D]⟩ .f32 0x3F800000#32) h) agg) w1 b1) w2 b2

theorem layer_eq (h agg : Spec.Mat 100000 D) (w1 : Spec.Mat D 128) (b1 : (⟨1, ![128]⟩ : Shape).Idx → EReal) (w2 : Spec.Mat 128 128)
    (b2 : (⟨1, ![128]⟩ : Shape).Idx → EReal) : layerR h agg w1 b1 w2 b2 = Spec.layer h agg w1 (Spec.row b1) w2 (Spec.row b2) := by
  have hid (n : Fin 100000) (d : Fin 128) :
      affRelu (addf (F := Ideal) (φ := .f32) (mulf (constant (F := Ideal) ⟨2, ![100000, D]⟩ .f32 0x3F800000#32) h) agg) w1 b1 (ix2 n d)
        = Spec.hidden h agg w1 (Spec.row b1) n d := by
    unfold Spec.hidden
    rw [affRelu_apply]
    congr 2
    refine Finset.sum_congr rfl fun e _ => ?_
    rw [addf_apply, mulf_apply, constant_apply, Ideal.ofBits_one_f32, one_mul]
  funext i
  obtain ⟨n, k, rfl⟩ : ∃ (n : Fin 100000) (k : Fin 128), i = ix2 n k := ⟨i 0, i 1, eq_ix2 i⟩
  unfold layerR Spec.layer
  rw [affRelu_apply]
  congr 2
  exact Finset.sum_congr rfl fun d _ => by rw [hid]

end Cert.ReferenceIdeal.RefValue

end
-- ==== Proof.Value.RefPool.lean ====
import proofs.«429475_j15058155340592_1_alg».proof.Proof.Gen.ReferenceIdeal.Read
import proofs.«429475_j15058155340592_1_alg».proof.Proof.Value.Total
import Idealize.ShloMosaic.Lib.IdealHost

set_option maxRecDepth 16384

noncomputable section

namespace Cert.ReferenceIdeal.RefValue

open Cert.ReferenceIdeal Cert.ReferenceIdeal.Gen Idealize.ShloMosaic Idealize.ShloMosaic.StableHlo Idealize.ShloMosaic.ValueIdx

abbrev scat : ScatterDims S1024x384 S100000x1 S100000x384 := scatter_S1024x384_S100000x1_S100000x384_1_0_0_1

theorem scat_start0 (n : Fin 100000) (c : Fin 384) (idx : IVec S100000x1 32) :
    scat.start (ix2 n c) idx 0 = (idx (ix2 n 0)).toInt := by
  unfold ScatterDims.start
  rw [dif_pos (show (0 : Fin S1024x384.rank) ∈ scat.scatterDimsToOperandDims by decide)]
  have hsi : scat.siIdx (ix2 n c) ⟨List.idxOf (0 : Fin S1024x384.rank) scat.scatterDimsToOperandDims,
      List.idxOf_lt_length_iff.2 (by decide)⟩ = ix2 n 0 := by
    funext b; refine Fin.ext ?_
    match b with
    | ⟨0, _⟩ => rfl
    | ⟨1, _⟩ => rfl
  rw [hsi]

theorem scat_start1 (n : Fin 100000) (c : Fin 384) (idx : IVec S100000x1 32) :
    scat.start (ix2 n c) idx 1 = 0 := by
  unfold ScatterDims.start
  rw [dif_neg (show ¬(1 : Fin S1024x384.rank) ∈ scat.scatterDimsToOperandDims by decide)]

theorem scat_window0 (n : Fin 100000) (c : Fin 384) : scat.window (ix2 n c) 0 = 0 := by
  unfold ScatterDims.window
  rw [dif_neg (show ¬(0 : Fin S1024x384.rank) ∈ scat.sKept by decide)]

theorem scat_window1 (n : Fin 100000) (c : Fin 384) : scat.window (ix2 n c) 1 = c.val := by
  unfold ScatterDims.window
  rw [dif_pos (show (1 : Fin S1024x384.rank) ∈ scat.sKept by decide)]
  rfl

theorem toInt_eq_small (w : BitVec 32) (g : Nat) (hg : g < 1024) : w.toInt = (g : Int) ↔ w = BitVec.ofNat 32 g := by
  rw [BitVec.toInt_eq_toNat_cond, ← BitVec.toNat_inj, BitVec.toNat_ofNat]
  have := w.isLt
  split <;> omega

-- An update lands at `r` exactly when, on every axis, its start plus its window coordinate is `r`'s coordinate.
theorem resultIdx?_eq_some {s si u : Shape} {w : Nat} (d : ScatterDims s si u) (j : u.Idx) (idx : IVec si w) (r : s.Idx) :
    d.resultIdx? j idx = some r ↔ ∀ a, d.start j idx a + d.window j a = ((r a).val : Int) := by
  unfold ScatterDims.resultIdx?
  split
  · next h =>
    rw [Option.some.injEq]
    constructor
    · rintro rfl a
      have := (h a).1
      show _ = (((d.start j idx a + d.window j a).toNat : Nat) : Int)
      omega
    · intro e
      funext a
      apply Fin.ext
      show (d.start j idx a + d.window j a).toNat = (r a).val
      have := e a
      omega
  · next h =>
    refine ⟨fun e => (nomatch e), fun e => absurd (fun a => ?_) h⟩
    have := e a
    have := (r a).isLt
    omega

theorem scat_resultIdx (n : Fin 100000) (c : Fin 384) (idx : IVec S100000x1 32) (g : Fin 1024) (col : Fin 384) :
    scat.resultIdx? (ix2 n c) idx = some (ix2 g col) ↔ idx (ix2 n 0) = BitVec.ofNat 32 g.val ∧ c = col := by
  rw [resultIdx?_eq_some, ← toInt_eq_small _ _ g.isLt, Fin.forall_fin_two, scat_start0, scat_window0, scat_start1, scat_window1,
    Fin.ext_iff]
  show (idx (ix2 n 0)).toInt + ((0 : Nat) : Int) = (g.val : Int) ∧ (0 : Int) + ((c.val : Nat) : Int) = ((col.val : Nat) : Int) ↔ _
  omega

theorem scatter_read (x : FVec Ideal S1024x384 .f32) (idx : IVec S100000x1 32) (upd : FVec Ideal S100000x384 .f32)
    (g : Fin 1024) (col : Fin 384) :
    Host.scatterAdd (F := Ideal) scat x idx upd (ix2 g col)
      = x (ix2 g col) + ∑ n : Fin 100000, if idx (ix2 n 0) = BitVec.ofNat 32 g.val then upd (ix2 n col) else 0 := by
  show x (ix2 g col) + ∑ j ∈ Finset.univ.filter (fun j => scat.resultIdx? j idx = some (ix2 g col)), upd j = _
  refine congrArg (x (ix2 g col) + ·) ?_
  rw [Finset.sum_filter, sum_idx2]
  refine Finset.sum_congr rfl fun n _ => ?_
  simp only [scat_resultIdx]
  by_cases hw : idx (ix2 n 0) = BitVec.ofNat 32 g.val
  · simp only [hw, true_and, if_true]
    exact Finset.sum_ite_eq' Finset.univ col (fun c => upd (ix2 n c)) |>.trans (if_pos (Finset.mem_univ _))
  · simp only [hw, false_and, if_false]
    exact Finset.sum_const_zero

theorem cat_read (a b c : Spec.Mat 100000 128) (n : Fin 100000) (col : Fin 384) :
    concatenate S100000x384 1 [⟨S100000x128, a⟩, ⟨S100000x128, b⟩, ⟨S100000x128, c⟩]
        concatenates_S100000x128_S100000x128_S100000x128_S100000x384_d1 (ix2 n col)
      = if col.val < 128 then a (ix2 n ⟨col.val % 128, Nat.mod_lt _ (by decide)⟩)
        else if col.val < 256 then b (ix2 n ⟨(col.val - 128) % 128, Nat.mod_lt _ (by decide)⟩)
        else c (ix2 n ⟨(col.val - 256) % 128, Nat.mod_lt _ (by decide)⟩) := by
  have piece (k : Nat) (hk) (x : Spec.Mat 100000 128) (hx) (pre : Nat) (hpre) (m : Fin 128) (hm : pre + m.val = col.val) :=
    concatenate_apply_piece (1 : Fin S100000x384.rank) [⟨S100000x128, a⟩, ⟨S100000x128, b⟩, ⟨S100000x128, c⟩]
      concatenates_S100000x128_S100000x128_S100000x128_S100000x384_d1 (ix2 n col) k hk S100000x128 x hx rfl pre hpre (ix2 n m)
      (fun d hd => match d with
        | ⟨0, _⟩ => rfl
        | ⟨1, _⟩ => absurd rfl hd) hm
  have hcol := col.isLt
  by_cases h1 : col.val < 128
  · rw [if_pos h1]
    exact piece 0 (by simp) a rfl 0 rfl _ (by show 0 + col.val % 128 = col.val; omega)
  rw [if_neg h1]
  by_cases h2 : col.val < 256
  · rw [if_pos h2]
    exact piece 1 (by simp) b rfl 128 rfl _ (by show 128 + (col.val - 128) % 128 = col.val; omega)
  · rw [if_neg h2]
    exact piece 2 (by simp) c rfl 256 rfl _ (by show 256 + (col.val - 256) % 128 = col.val; omega)

def poolR (a b c : Spec.Mat 100000 128) (batch : (⟨1, ![100000]⟩ : Shape).Idx → BitVec 32) : Spec.Mat 1024 384 :=
  Host.scatterAdd (F := Ideal) (φ := .f32) scatter_S1024x384_S100000x1_S100000x384_1_0_0_1
    (broadcastInDim S1024x384 ![] bcast_S_S1024x384 (constant (F := Ideal) S_ .f32 0x00000000#32))
    (broadcastInDim S100000x1 ![0] bcast_S100000_S100000x1_0 batch)
    (concatenate S100000x384 1 [⟨S100000x128, a⟩, ⟨S100000x128, b⟩, ⟨S100000x128, c⟩]
      concatenates_S100000x128_S100000x128_S100000x128_S100000x384_d1)

theorem poolR_eq (a b c : Spec.Mat 100000 128) (batch : (⟨1, ![100000]⟩ : Shape).Idx → BitVec 32) :
    poolR a b c batch
      = Spec.cat3 (Spec.pool a (Spec.col batch)) (Spec.pool b (Spec.col batch)) (Spec.pool c (Spec.col batch)) := by
  funext i
  obtain ⟨g, col, rfl⟩ : ∃ (g : Fin 1024) (col : Fin 384), i = ix2 g col := ⟨i 0, i 1, eq_ix2 i⟩
  unfold poolR
  refine (scatter_read _ _ _ g col).trans ?_
  have hb (n : Fin 100000) : broadcastInDim S100000x1 ![0] bcast_S100000_S100000x1_0 batch (ix2 n 0) = Spec.col batch (ix2 n 0) :=
    (Read.val_main_v75_apply (F := Ideal) batch (ix2 n 0)).trans (congrArg batch (funext fun d => match d with | ⟨0, _⟩ => rfl))
  rw [broadcastInDim_scalar_apply, constant_apply, Ideal.ofBits_zero_f32, zero_add]
  simp only [hb, cat_read]
  unfold Spec.cat3
  dsimp only
  split_ifs <;> rfl

end Cert.ReferenceIdeal.RefValue

end
-- ==== Proof.Value.RefClf.lean ====
import proofs.«429475_j15058155340592_1_alg».proof.Proof.Gen.ReferenceIdeal.Read
import proofs.«429475_j15058155340592_1_alg».proof.Proof.Value.Total
import Idealize.ShloMosaic.Lib.IdealHost
import Idealize.ShloMosaic.Lib.StackMember
set_option maxRecDepth 16384

noncomputable section

namespace Cert.ReferenceIdeal.RefValue

open Cert.ReferenceIdeal Cert.ReferenceIdeal.Gen Idealize.ShloMosaic Idealize.ShloMosaic.StableHlo Idealize.ShloMosaic.ValueIdx

-- The classifier as the reference computes it: an affine map, the normalisation, a clip at zero, a last affine map.
def clfR (g : Spec.Mat 1024 384) (w1 : Spec.Mat 384 256) (b1 : (⟨1, ![256]⟩ : Shape).Idx → EReal) (w2 : Spec.Mat 256 2)
    (b2 : (⟨1, ![2]⟩ : Shape).Idx → EReal) (gam bet mean var : (⟨1, ![256]⟩ : Shape).Idx → EReal) : Spec.Mat 1024 2 :=
  addf (F := Ideal) (φ := .f32)
    (Host.dotGeneral (φ₁ := .f32) (φ₂ := .f32) dot_S1024x256_S256x2_S1024x2_1_0_0_1_n_n none
      (maximumf
        (addf
          (mulf
            (mulf
              (subf
                (addf (Host.dotGeneral (φ₁ := .f32) (φ₂ := .f32) dot_S1024x384_S384x256_S1024x256_1_0_0_1_n_n none g w1)
                  (Read.val_main_v79 (F := Ideal) b1))
                (Read.val_main_v79 (F := Ideal) mean))
              (Read.val_main_v79 (F := Ideal)
                (Host.rsqrt (addf var (constant (F := Ideal) S256 .f32 0x3727C5AC#32)))))
            (Read.val_main_v79 (F := Ideal) gam))
          (Read.val_main_v79 (F := Ideal) bet))
        (constant (F := Ideal) S1024x256 .f32 0x00000000#32))
      w2)
    (Read.val_main_v99 (F := Ideal) b2)

theorem clfR_eq (g : Spec.Mat 1024 384) (w1 : Spec.Mat 384 256) (b1 : (⟨1, ![256]⟩ : Shape).Idx → EReal) (w2 : Spec.Mat 256 2)
    (b2 : (⟨1, ![2]⟩ : Shape).Idx → EReal) (gam bet mean var : (⟨1, ![256]⟩ : Shape).Idx → EReal) :
    clfR g w1 b1 w2 b2 gam bet mean var
      = Spec.clf g w1 (Spec.row b1) (Spec.row gam) (Spec.row bet) (Spec.row mean) (Spec.row var) Spec.eps w2 (Spec.row b2) := by
  have row256 (b : (⟨1, ![256]⟩ : Shape).Idx → EReal) (r : Fin 1024) (k : Fin 256) : Read.val_main_v79 (F := Ideal) b (ix2 r k) = Spec.row b (ix2 0 k) :=
    (Read.val_main_v79_apply (F := Ideal) b (ix2 r k)).trans ((Read.val_main_v78_apply (F := Ideal) b _).trans
      (congrArg b (funext fun a => match a with | ⟨0, _⟩ => rfl)))
  have row2 (b : (⟨1, ![2]⟩ : Shape).Idx → EReal) (r : Fin 1024) (k : Fin 2) : Read.val_main_v99 (F := Ideal) b (ix2 r k) = Spec.row b (ix2 0 k) :=
    (Read.val_main_v99_apply (F := Ideal) b (ix2 r k)).trans ((Read.val_main_v98_apply (F := Ideal) b _).trans
      (congrArg b (funext fun a => match a with | ⟨0, _⟩ => rfl)))
  funext i
  obtain ⟨r, j, rfl⟩ : ∃ (r : Fin 1024) (j : Fin 2), i = ix2 r j := ⟨i 0, i 1, eq_ix2 i⟩
  unfold clfR
  refine (congrArg₂ (· + ·) (StackMember.dotGeneral_plain_apply none _ _ r j) (row2 b2 r j)).trans ?_
  refine congrArg₂ (· + ·) (Finset.sum_congr rfl fun k _ => congrArg₂ (· * ·) ?_ rfl) rfl
  exact congrArg₂ max (congrArg₂ (· + ·) (congrArg₂ (· * ·) (congrArg₂ (· * ·) (congrArg₂ (· - ·)
    (congrArg₂ (· + ·) (StackMember.dotGeneral_plain_apply none g w1 r k) (row256 b1 r k)) (row256 mean r k)) (row256 _ r k))
    (row256 gam r k)) (row256 bet r k)) Ideal.ofBits_zero_f32

end Cert.ReferenceIdeal.RefValue

end
-- ==== Proof.Value.Ref.lean ====
import proofs.«429475_j15058155340592_1_alg».proof.Proof.Value.RefLayer
import proofs.«429475_j15058155340592_1_alg».proof.Proof.Value.RefPool
import proofs.«429475_j15058155340592_1_alg».proof.Proof.Value.RefClf
set_option maxRecDepth 16384

noncomputable section

namespace Cert.ReferenceIdeal.RefValue

open Cert.ReferenceIdeal Idealize.ShloMosaic

-- The reference, stage by stage, is the network: each layer stage is `layerR` of the stage before, then the pooling and the classifier.
theorem ref_eq : Read.val_main_v100 (F := Ideal) = Spec.total aggR7 aggR128 := by
  funext x0 x1 x2 x3 x4 x5 x6 x7 x8 x9 x10 x11 x12 x13 x14 x15 x16 x17 x18 x19 x20 x21 x22
  have h1 : Read.val_main_v26 (F := Ideal) x0 x1 x3 x4 x5 x6 = _ := layer_eq x0 (aggR7 x0 x1) x3 x4 x5 x6
  have h2 : Read.val_main_v49 (F := Ideal) x0 x1 x3 x4 x5 x6 x7 x8 x9 x10 = _ := layer_eq (Read.val_main_v26 (F := Ideal) x0 x1 x3 x4 x5 x6) (aggR128 _ x1) x7 x8 x9 x10
  have h3 : Read.val_main_v72 (F := Ideal) x0 x1 x3 x4 x5 x6 x7 x8 x9 x10 x11 x12 x13 x14 = _ := layer_eq (Read.val_main_v49 (F := Ideal) x0 x1 x3 x4 x5 x6 x7 x8 x9 x10) (aggR128 _ x1) x11 x12 x13 x14
  refine (clfR_eq (poolR (Read.val_main_v26 (F := Ideal) x0 x1 x3 x4 x5 x6) (Read.val_main_v49 (F := Ideal) x0 x1 x3 x4 x5 x6 x7 x8 x9 x10) (Read.val_main_v72 (F := Ideal) x0 x1 x3 x4 x5 x6 x7 x8 x9 x10 x11 x12 x13 x14) x2) x15 x16 x17 x18 x19 x20 x21 x22).trans ?_
  rw [poolR_eq, h3, h2, h1]
  rfl

end Cert.ReferenceIdeal.RefValue

end
-- ==== Proof.Value.Algebraic.lean ====
import proofs.«429475_j15058155340592_1_alg».proof.Defs
import proofs.«429475_j15058155340592_1_alg».proof.Proof.Gen.Pre_finite_inputs
import proofs.«429475_j15058155340592_1_alg».proof.Proof.KernelIdeal.Frame
import proofs.«429475_j15058155340592_1_alg».proof.Proof.Value.KernelVal
import proofs.«429475_j15058155340592_1_alg».proof.Proof.Value.Ref

noncomputable section

namespace Cert.Proof.Value

open Idealize.ShloMosaic Idealize.ShloMosaic.TcCoe Idealize.SL.Sem Cert.KernelIdeal.Val Cert.ReferenceIdeal.RefValue

-- The aggregation is the same chain of operations in the two programs, their shape records equal field by field.
theorem agg7_eq : aggK7 = aggR7 := by
  funext h ei
  rw [aggK7_eq]
  rfl

theorem agg128_eq : aggK128 = aggR128 := by
  funext h ei
  rw [aggK128_eq]
  rfl

set_option maxHeartbeats 1000000 in
-- From memories that agree on the arguments both programs end with the network's value of those arguments.
theorem algebraic : Cert.algebraic_KernelIdeal_ReferenceIdeal := by
  intro m ρ m' ρ' _ hagree
  apply Exists.intro
  constructor
  · exact (θ_run Cert.KernelIdeal.defs _ _).mono (fun _ h c => ⟨(h c).1.trans (kernel_val m c), (h c).2⟩)
      (Cert.KernelIdeal.Hand.run_val (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20, h21, h22⟩ := hagree c
    refine (Cert.ReferenceIdeal.Read.val_main_v100_eq (F := Ideal) m' c).trans ?_
    rw [ref_eq, ← agg7_eq, ← agg128_eq, h0, h1, h2, h3, h4, h5, h6, h7, h8,
      h9, h10, h11, h12, h13, h14, h15, h16, h17, h18, h19, h20, h21, h22]

end Cert.Proof.Value

end
-- ==== Proof.lean ====
import proofs.«429475_j15058155340592_1_alg».proof.Defs
import proofs.«429475_j15058155340592_1_alg».proof.Proof.Gen.Kernel
import proofs.«429475_j15058155340592_1_alg».proof.Proof.Gen.KernelIdeal
import proofs.«429475_j15058155340592_1_alg».proof.Proof.Gen.ReferenceIdeal
import proofs.«429475_j15058155340592_1_alg».proof.Proof.Gen.Pre_finite_inputs
import proofs.«429475_j15058155340592_1_alg».proof.Proof.Kernel.Frame
import proofs.«429475_j15058155340592_1_alg».proof.Proof.Value.Algebraic

noncomputable section

namespace Cert.Proof

open Idealize.ShloMosaic Idealize.SL.Sem

/-- Each program's frame is its run with the result forgotten; the idealization rewrote nothing, so there is nothing to preserve. -/
theorem claim : Cert.Claim :=
  ⟨Cert.Kernel.Gen.facts, Cert.KernelIdeal.Gen.facts, Cert.ReferenceIdeal.Gen.facts, Cert.Pre_finite_inputs.Gen.facts,
    fun m ρ _ => (θ_run Cert.Kernel.defs _ _).mono (fun _ h c => (h c).2) (Cert.Kernel.Hand.run_val m ρ),
    fun m ρ _ => (θ_run Cert.KernelIdeal.defs _ _).mono (fun _ h c => (h c).2) (Cert.KernelIdeal.Hand.run_val m ρ),
    fun m ρ _ => (θ_run Cert.ReferenceIdeal.defs _ _).mono (fun _ h c => (h c).2) (Cert.ReferenceIdeal.Value.run (F := Ideal) m ρ),
    trivial, Cert.Proof.Value.algebraic⟩

end Cert.Proof

end
